-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S16384x32 : Shape := ⟨2, ![16384, 32]⟩
abbrev S32768x32 : Shape := ⟨2, ![32768, 32]⟩
abbrev S65536x32 : Shape := ⟨2, ![65536, 32]⟩
abbrev S131072x32 : Shape := ⟨2, ![131072, 32]⟩
abbrev S262144x32 : Shape := ⟨2, ![262144, 32]⟩
abbrev S524288x32 : Shape := ⟨2, ![524288, 32]⟩
abbrev S1048576x32 : Shape := ⟨2, ![1048576, 32]⟩
abbrev S2097152x32 : Shape := ⟨2, ![2097152, 32]⟩
abbrev S8192x2 : Shape := ⟨2, ![8192, 2]⟩
abbrev S16384x2 : Shape := ⟨2, ![16384, 2]⟩
abbrev S32768x2 : Shape := ⟨2, ![32768, 2]⟩
abbrev S65536x2 : Shape := ⟨2, ![65536, 2]⟩
abbrev S131072x2 : Shape := ⟨2, ![131072, 2]⟩
abbrev S262144x2 : Shape := ⟨2, ![262144, 2]⟩
abbrev S524288x2 : Shape := ⟨2, ![524288, 2]⟩
abbrev S1048576x2 : Shape := ⟨2, ![1048576, 2]⟩
abbrev S32x64 : Shape := ⟨2, ![32, 64]⟩
abbrev S64 : Shape := ⟨1, ![64]⟩
abbrev S192x64 : Shape := ⟨2, ![192, 64]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S32768x32 : S_.BroadcastsInDim S32768x32 (![] : Fin 0 → Fin S32768x32.rank)
  reducesTo_S32768x32_S_d0_1 : S32768x32.ReducesTo [0, 1] S_
  bcast_S_S65536x32 : S_.BroadcastsInDim S65536x32 (![] : Fin 0 → Fin S65536x32.rank)
  reducesTo_S65536x32_S_d0_1 : S65536x32.ReducesTo [0, 1] S_
  bcast_S_S131072x32 : S_.BroadcastsInDim S131072x32 (![] : Fin 0 → Fin S131072x32.rank)
  reducesTo_S131072x32_S_d0_1 : S131072x32.ReducesTo [0, 1] S_
  bcast_S_S262144x32 : S_.BroadcastsInDim S262144x32 (![] : Fin 0 → Fin S262144x32.rank)
  reducesTo_S262144x32_S_d0_1 : S262144x32.ReducesTo [0, 1] S_
  bcast_S_S524288x32 : S_.BroadcastsInDim S524288x32 (![] : Fin 0 → Fin S524288x32.rank)
  reducesTo_S524288x32_S_d0_1 : S524288x32.ReducesTo [0, 1] S_
  bcast_S_S1048576x32 : S_.BroadcastsInDim S1048576x32 (![] : Fin 0 → Fin S1048576x32.rank)
  reducesTo_S1048576x32_S_d0_1 : S1048576x32.ReducesTo [0, 1] S_
  bcast_S_S2097152x32 : S_.BroadcastsInDim S2097152x32 (![] : Fin 0 → Fin S2097152x32.rank)
  reducesTo_S2097152x32_S_d0_1 : S2097152x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S8192x2 : S_.BroadcastsInDim S8192x2 (![] : Fin 0 → Fin S8192x2.rank)
  reducesTo_S8192x2_S_d0_1 : S8192x2.ReducesTo [0, 1] S_
  bcast_S_S16384x2 : S_.BroadcastsInDim S16384x2 (![] : Fin 0 → Fin S16384x2.rank)
  reducesTo_S16384x2_S_d0_1 : S16384x2.ReducesTo [0, 1] S_
  bcast_S_S32768x2 : S_.BroadcastsInDim S32768x2 (![] : Fin 0 → Fin S32768x2.rank)
  reducesTo_S32768x2_S_d0_1 : S32768x2.ReducesTo [0, 1] S_
  bcast_S_S65536x2 : S_.BroadcastsInDim S65536x2 (![] : Fin 0 → Fin S65536x2.rank)
  reducesTo_S65536x2_S_d0_1 : S65536x2.ReducesTo [0, 1] S_
  bcast_S_S131072x2 : S_.BroadcastsInDim S131072x2 (![] : Fin 0 → Fin S131072x2.rank)
  reducesTo_S131072x2_S_d0_1 : S131072x2.ReducesTo [0, 1] S_
  bcast_S_S262144x2 : S_.BroadcastsInDim S262144x2 (![] : Fin 0 → Fin S262144x2.rank)
  reducesTo_S262144x2_S_d0_1 : S262144x2.ReducesTo [0, 1] S_
  bcast_S_S524288x2 : S_.BroadcastsInDim S524288x2 (![] : Fin 0 → Fin S524288x2.rank)
  reducesTo_S524288x2_S_d0_1 : S524288x2.ReducesTo [0, 1] S_
  bcast_S_S1048576x2 : S_.BroadcastsInDim S1048576x2 (![] : Fin 0 → Fin S1048576x2.rank)
  reducesTo_S1048576x2_S_d0_1 : S1048576x2.ReducesTo [0, 1] S_

variable [Facts]

def fn_part7 {F : FTy → Type} [FloatOps F] (main_v112 : IVec S_ 1) (main_v117 : IVec S1048576x2 1) (main_c_47 : IVec S_ 1) : IVec S_ 1 :=
  let main_v118 : IVec S_ 1 := (fun x v => Host.reduce IntOp.andi x v reducesTo_S1048576x2_S_d0_1 h_S_) main_v117 main_c_47
  let main_v119 : IVec S_ 1 := andi main_v112 main_v118
  main_v119

def fn_part6 {F : FTy → Type} [FloatOps F] (main_arg14 : IVec S262144x2 32) (main_arg15 : IVec S524288x2 32) (main_arg16 : IVec S1048576x2 32) (main_v98 : IVec S_ 1) (main_v100 : IVec S262144x2 1) (main_c_40 : IVec S_ 32) : IVec S_ 1 :=
  let main_v101 : IVec S262144x2 32 := broadcastInDim S262144x2 ![] bcast_S_S262144x2 main_c_40
  let main_v102 : IVec S262144x2 1 := cmpi .slt main_arg14 main_v101
  let main_v103 : IVec S262144x2 1 := andi main_v100 main_v102
  let main_c_41 : IVec S_ 1 := constantI S_ 1 1#1
  let main_v104 : IVec S_ 1 := (fun x v => Host.reduce IntOp.andi x v reducesTo_S262144x2_S_d0_1 h_S_) main_v103 main_c_41
  let main_v105 : IVec S_ 1 := andi main_v98 main_v104
  let main_c_42 : IVec S_ 32 := constantI S_ 32 0#32
  let main_v106 : IVec S524288x2 32 := broadcastInDim S524288x2 ![] bcast_S_S524288x2 main_c_42
  let main_v107 : IVec S524288x2 1 := cmpi .sge main_arg15 main_v106
  let main_c_43 : IVec S_ 32 := constantI S_ 32 1048576#32
  let main_v108 : IVec S524288x2 32 := broadcastInDim S524288x2 ![] bcast_S_S524288x2 main_c_43
  let main_v109 : IVec S524288x2 1 := cmpi .slt main_arg15 main_v108
  let main_v110 : IVec S524288x2 1 := andi main_v107 main_v109
  let main_c_44 : IVec S_ 1 := constantI S_ 1 1#1
  let main_v111 : IVec S_ 1 := (fun x v => Host.reduce IntOp.andi x v reducesTo_S524288x2_S_d0_1 h_S_) main_v110 main_c_44
  let main_v112 : IVec S_ 1 := andi main_v105 main_v111
  let main_c_45 : IVec S_ 32 := constantI S_ 32 0#32
  let main_v113 : IVec S1048576x2 32 := broadcastInDim S1048576x2 ![] bcast_S_S1048576x2 main_c_45
  let main_v114 : IVec S1048576x2 1 := cmpi .sge main_arg16 main_v113
  let main_c_46 : IVec S_ 32 := constantI S_ 32 2097152#32
  let main_v115 : IVec S1048576x2 32 := broadcastInDim S1048576x2 ![] bcast_S_S1048576x2 main_c_46
  let main_v116 : IVec S1048576x2 1 := cmpi .slt main_arg16 main_v115
  let main_v117 : IVec S1048576x2 1 := andi main_v114 main_v116
  let main_c_47 : IVec S_ 1 := constantI S_ 1 1#1
  fn_part7 (F := F) main_v112 main_v117 main_c_47

def fn_part5 {F : FTy → Type} [FloatOps F] (main_arg12 : IVec S65536x2 32) (main_arg13 : IVec S131072x2 32) (main_arg14 : IVec S262144x2 32) (main_arg15 : IVec S524288x2 32) (main_arg16 : IVec S1048576x2 32) (main_v84 : IVec S_ 1) : IVec S_ 1 :=
  let main_c_33 : IVec S_ 32 := constantI S_ 32 0#32
  let main_v85 : IVec S65536x2 32 := broadcastInDim S65536x2 ![] bcast_S_S65536x2 main_c_33
  let main_v86 : IVec S65536x2 1 := cmpi .sge main_arg12 main_v85
  let main_c_34 : IVec S_ 32 := constantI S_ 32 131072#32
  let main_v87 : IVec S65536x2 32 := broadcastInDim S65536x2 ![] bcast_S_S65536x2 main_c_34
  let main_v88 : IVec S65536x2 1 := cmpi .slt main_arg12 main_v87
  let main_v89 : IVec S65536x2 1 := andi main_v86 main_v88
  let main_c_35 : IVec S_ 1 := constantI S_ 1 1#1
  let main_v90 : IVec S_ 1 := (fun x v => Host.reduce IntOp.andi x v reducesTo_S65536x2_S_d0_1 h_S_) main_v89 main_c_35
  let main_v91 : IVec S_ 1 := andi main_v84 main_v90
  let main_c_36 : IVec S_ 32 := constantI S_ 32 0#32
  let main_v92 : IVec S131072x2 32 := broadcastInDim S131072x2 ![] bcast_S_S131072x2 main_c_36
  let main_v93 : IVec S131072x2 1 := cmpi .sge main_arg13 main_v92
  let main_c_37 : IVec S_ 32 := constantI S_ 32 262144#32
  let main_v94 : IVec S131072x2 32 := broadcastInDim S131072x2 ![] bcast_S_S131072x2 main_c_37
  let main_v95 : IVec S131072x2 1 := cmpi .slt main_arg13 main_v94
  let main_v96 : IVec S131072x2 1 := andi main_v93 main_v95
  let main_c_38 : IVec S_ 1 := constantI S_ 1 1#1
  let main_v97 : IVec S_ 1 := (fun x v => Host.reduce IntOp.andi x v reducesTo_S131072x2_S_d0_1 h_S_) main_v96 main_c_38
  let main_v98 : IVec S_ 1 := andi main_v91 main_v97
  let main_c_39 : IVec S_ 32 := constantI S_ 32 0#32
  let main_v99 : IVec S262144x2 32 := broadcastInDim S262144x2 ![] bcast_S_S262144x2 main_c_39
  let main_v100 : IVec S262144x2 1 := cmpi .sge main_arg14 main_v99
  let main_c_40 : IVec S_ 32 := constantI S_ 32 524288#32
  fn_part6 (F := F) main_arg14 main_arg15 main_arg16 main_v98 main_v100 main_c_40

def fn_part4 {F : FTy → Type} [FloatOps F] (main_arg10 : IVec S16384x2 32) (main_arg11 : IVec S32768x2 32) (main_arg12 : IVec S65536x2 32) (main_arg13 : IVec S131072x2 32) (main_arg14 : IVec S262144x2 32) (main_arg15 : IVec S524288x2 32) (main_arg16 : IVec S1048576x2 32) (main_v63 : IVec S_ 1) (main_v65 : IVec S8192x2 1) (main_v67 : IVec S8192x2 1) : IVec S_ 1 :=
  let main_v68 : IVec S8192x2 1 := andi main_v65 main_v67
  let main_c_26 : IVec S_ 1 := constantI S_ 1 1#1
  let main_v69 : IVec S_ 1 := (fun x v => Host.reduce IntOp.andi x v reducesTo_S8192x2_S_d0_1 h_S_) main_v68 main_c_26
  let main_v70 : IVec S_ 1 := andi main_v63 main_v69
  let main_c_27 : IVec S_ 32 := constantI S_ 32 0#32
  let main_v71 : IVec S16384x2 32 := broadcastInDim S16384x2 ![] bcast_S_S16384x2 main_c_27
  let main_v72 : IVec S16384x2 1 := cmpi .sge main_arg10 main_v71
  let main_c_28 : IVec S_ 32 := constantI S_ 32 32768#32
  let main_v73 : IVec S16384x2 32 := broadcastInDim S16384x2 ![] bcast_S_S16384x2 main_c_28
  let main_v74 : IVec S16384x2 1 := cmpi .slt main_arg10 main_v73
  let main_v75 : IVec S16384x2 1 := andi main_v72 main_v74
  let main_c_29 : IVec S_ 1 := constantI S_ 1 1#1
  let main_v76 : IVec S_ 1 := (fun x v => Host.reduce IntOp.andi x v reducesTo_S16384x2_S_d0_1 h_S_) main_v75 main_c_29
  let main_v77 : IVec S_ 1 := andi main_v70 main_v76
  let main_c_30 : IVec S_ 32 := constantI S_ 32 0#32
  let main_v78 : IVec S32768x2 32 := broadcastInDim S32768x2 ![] bcast_S_S32768x2 main_c_30
  let main_v79 : IVec S32768x2 1 := cmpi .sge main_arg11 main_v78
  let main_c_31 : IVec S_ 32 := constantI S_ 32 65536#32
  let main_v80 : IVec S32768x2 32 := broadcastInDim S32768x2 ![] bcast_S_S32768x2 main_c_31
  let main_v81 : IVec S32768x2 1 := cmpi .slt main_arg11 main_v80
  let main_v82 : IVec S32768x2 1 := andi main_v79 main_v81
  let main_c_32 : IVec S_ 1 := constantI S_ 1 1#1
  let main_v83 : IVec S_ 1 := (fun x v => Host.reduce IntOp.andi x v reducesTo_S32768x2_S_d0_1 h_S_) main_v82 main_c_32
  let main_v84 : IVec S_ 1 := andi main_v77 main_v83
  fn_part5 (F := F) main_arg12 main_arg13 main_arg14 main_arg15 main_arg16 main_v84

def fn_part3 {F : FTy → Type} [FloatOps F] (main_arg9 : IVec S8192x2 32) (main_arg10 : IVec S16384x2 32) (main_arg11 : IVec S32768x2 32) (main_arg12 : IVec S65536x2 32) (main_arg13 : IVec S131072x2 32) (main_arg14 : IVec S262144x2 32) (main_arg15 : IVec S524288x2 32) (main_arg16 : IVec S1048576x2 32) (main_arg19 : FVec F S192x64 .f32) (main_arg20 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S192x64 .f32 := Host.absf main_arg19
  let main_cst_20 : FVec F S_ .f32 := constant S_ .f32 0x7F800000#32
  let main_v55 : FVec F S192x64 .f32 := broadcastInDim S192x64 ![] bcast_S_S192x64 main_cst_20
  let main_v56 : IVec S192x64 1 := cmpf .olt main_v54 main_v55
  let main_c_21 : IVec S_ 1 := constantI S_ 1 1#1
  let main_v57 : IVec S_ 1 := (fun x v => Host.reduce IntOp.andi x v reducesTo_S192x64_S_d0_1 h_S_) main_v56 main_c_21
  let main_v58 : IVec S_ 1 := andi main_v53 main_v57
  let main_v59 : FVec F S64 .f32 := Host.absf main_arg20
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 0#32
  let main_v64 : IVec S8192x2 32 := broadcastInDim S8192x2 ![] bcast_S_S8192x2 main_c_24
  let main_v65 : IVec S8192x2 1 := cmpi .sge main_arg9 main_v64
  let main_c_25 : IVec S_ 32 := constantI S_ 32 16384#32
  let main_v66 : IVec S8192x2 32 := broadcastInDim S8192x2 ![] bcast_S_S8192x2 main_c_25
  let main_v67 : IVec S8192x2 1 := cmpi .slt main_arg9 main_v66
  fn_part4 (F := F) main_arg10 main_arg11 main_arg12 main_arg13 main_arg14 main_arg15 main_arg16 main_v63 main_v65 main_v67

def fn_part2 {F : FTy → Type} [FloatOps F] (main_arg7 : FVec F S1048576x32 .f32) (main_arg8 : FVec F S2097152x32 .f32) (main_arg9 : IVec S8192x2 32) (main_arg10 : IVec S16384x2 32) (main_arg11 : IVec S32768x2 32) (main_arg12 : IVec S65536x2 32) (main_arg13 : IVec S131072x2 32) (main_arg14 : IVec S262144x2 32) (main_arg15 : IVec S524288x2 32) (main_arg16 : IVec S1048576x2 32) (main_arg17 : FVec F S32x64 .f32) (main_arg18 : FVec F S64 .f32) (main_arg19 : FVec F S192x64 .f32) (main_arg20 : FVec F S64 .f32) (main_v33 : IVec S_ 1) : IVec S_ 1 :=
  let main_v34 : FVec F S1048576x32 .f32 := Host.absf main_arg7
  let main_cst_12 : FVec F S_ .f32 := constant S_ .f32 0x7F800000#32
  let main_v35 : FVec F S1048576x32 .f32 := broadcastInDim S1048576x32 ![] bcast_S_S1048576x32 main_cst_12
  let main_v36 : IVec S1048576x32 1 := cmpf .olt main_v34 main_v35
  let main_c_13 : IVec S_ 1 := constantI S_ 1 1#1
  let main_v37 : IVec S_ 1 := (fun x v => Host.reduce IntOp.andi x v reducesTo_S1048576x32_S_d0_1 h_S_) main_v36 main_c_13
  let main_v38 : IVec S_ 1 := andi main_v33 main_v37
  let main_v39 : FVec F S2097152x32 .f32 := Host.absf main_arg8
  let main_cst_14 : FVec F S_ .f32 := constant S_ .f32 0x7F800000#32
  let main_v40 : FVec F S2097152x32 .f32 := broadcastInDim S2097152x32 ![] bcast_S_S2097152x32 main_cst_14
  let main_v41 : IVec S2097152x32 1 := cmpf .olt main_v39 main_v40
  let main_c_15 : IVec S_ 1 := constantI S_ 1 1#1
  let main_v42 : IVec S_ 1 := (fun x v => Host.reduce IntOp.andi x v reducesTo_S2097152x32_S_d0_1 h_S_) main_v41 main_c_15
  let main_v43 : IVec S_ 1 := andi main_v38 main_v42
  let main_v44 : FVec F S32x64 .f32 := Host.absf main_arg17
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg18
  let main_cst_18 : FVec F S_ .f32 := constant S_ .f32 0x7F800000#32
  let main_v50 : FVec F S64 .f32 := broadcastInDim S64 ![] bcast_S_S64 main_cst_18
  fn_part3 (F := F) main_arg9 main_arg10 main_arg11 main_arg12 main_arg13 main_arg14 main_arg15 main_arg16 main_arg19 main_arg20 main_v48 main_v49 main_v50

def fn_part1 {F : FTy → Type} [FloatOps F] (main_arg4 : FVec F S131072x32 .f32) (main_arg5 : FVec F S262144x32 .f32) (main_arg6 : FVec F S524288x32 .f32) (main_arg7 : FVec F S1048576x32 .f32) (main_arg8 : FVec F S2097152x32 .f32) (main_arg9 : IVec S8192x2 32) (main_arg10 : IVec S16384x2 32) (main_arg11 : IVec S32768x2 32) (main_arg12 : IVec S65536x2 32) (main_arg13 : IVec S131072x2 32) (main_arg14 : IVec S262144x2 32) (main_arg15 : IVec S524288x2 32) (main_arg16 : IVec S1048576x2 32) (main_arg17 : FVec F S32x64 .f32) (main_arg18 : FVec F S64 .f32) (main_arg19 : FVec F S192x64 .f32) (main_arg20 : FVec F S64 .f32) (main_v13 : IVec S_ 1) (main_v16 : IVec S65536x32 1) : IVec S_ 1 :=
  let main_c_5 : IVec S_ 1 := constantI S_ 1 1#1
  let main_v17 : IVec S_ 1 := (fun x v => Host.reduce IntOp.andi x v reducesTo_S65536x32_S_d0_1 h_S_) main_v16 main_c_5
  let main_v18 : IVec S_ 1 := andi main_v13 main_v17
  let main_v19 : FVec F S131072x32 .f32 := Host.absf main_arg4
  let main_cst_6 : FVec F S_ .f32 := constant S_ .f32 0x7F800000#32
  let main_v20 : FVec F S131072x32 .f32 := broadcastInDim S131072x32 ![] bcast_S_S131072x32 main_cst_6
  let main_v21 : IVec S131072x32 1 := cmpf .olt main_v19 main_v20
  let main_c_7 : IVec S_ 1 := constantI S_ 1 1#1
  let main_v22 : IVec S_ 1 := (fun x v => Host.reduce IntOp.andi x v reducesTo_S131072x32_S_d0_1 h_S_) main_v21 main_c_7
  let main_v23 : IVec S_ 1 := andi main_v18 main_v22
  let main_v24 : FVec F S262144x32 .f32 := Host.absf main_arg5
  let main_cst_8 : FVec F S_ .f32 := constant S_ .f32 0x7F800000#32
  let main_v25 : FVec F S262144x32 .f32 := broadcastInDim S262144x32 ![] bcast_S_S262144x32 main_cst_8
  let main_v26 : IVec S262144x32 1 := cmpf .olt main_v24 main_v25
  let main_c_9 : IVec S_ 1 := constantI S_ 1 1#1
  let main_v27 : IVec S_ 1 := (fun x v => Host.reduce IntOp.andi x v reducesTo_S262144x32_S_d0_1 h_S_) main_v26 main_c_9
  let main_v28 : IVec S_ 1 := andi main_v23 main_v27
  let main_v29 : FVec F S524288x32 .f32 := Host.absf main_arg6
  let main_cst_10 : FVec F S_ .f32 := constant S_ .f32 0x7F800000#32
  let main_v30 : FVec F S524288x32 .f32 := broadcastInDim S524288x32 ![] bcast_S_S524288x32 main_cst_10
  let main_v31 : IVec S524288x32 1 := cmpf .olt main_v29 main_v30
  let main_c_11 : IVec S_ 1 := constantI S_ 1 1#1
  let main_v32 : IVec S_ 1 := (fun x v => Host.reduce IntOp.andi x v reducesTo_S524288x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x32 .f32) (main_arg1 : FVec F S16384x32 .f32) (main_arg2 : FVec F S32768x32 .f32) (main_arg3 : FVec F S65536x32 .f32) (main_arg4 : FVec F S131072x32 .f32) (main_arg5 : FVec F S262144x32 .f32) (main_arg6 : FVec F S524288x32 .f32) (main_arg7 : FVec F S1048576x32 .f32) (main_arg8 : FVec F S2097152x32 .f32) (main_arg9 : IVec S8192x2 32) (main_arg10 : IVec S16384x2 32) (main_arg11 : IVec S32768x2 32) (main_arg12 : IVec S65536x2 32) (main_arg13 : IVec S131072x2 32) (main_arg14 : IVec S262144x2 32) (main_arg15 : IVec S524288x2 32) (main_arg16 : IVec S1048576x2 32) (main_arg17 : FVec F S32x64 .f32) (main_arg18 : FVec F S64 .f32) (main_arg19 : FVec F S192x64 .f32) (main_arg20 : FVec F S64 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32768x32 .f32 := Host.absf main_arg2
  let main_cst_2 : FVec F S_ .f32 := constant S_ .f32 0x7F800000#32
  let main_v10 : FVec F S32768x32 .f32 := broadcastInDim S32768x32 ![] bcast_S_S32768x32 main_cst_2
  let main_v11 : IVec S32768x32 1 := cmpf .olt main_v9 main_v10
  let main_c_3 : IVec S_ 1 := constantI S_ 1 1#1
  let main_v12 : IVec S_ 1 := (fun x v => Host.reduce IntOp.andi x v reducesTo_S32768x32_S_d0_1 h_S_) main_v11 main_c_3
  let main_v13 : IVec S_ 1 := andi main_v8 main_v12
  let main_v14 : FVec F S65536x32 .f32 := Host.absf main_arg3
  let main_cst_4 : FVec F S_ .f32 := constant S_ .f32 0x7F800000#32
  let main_v15 : FVec F S65536x32 .f32 := broadcastInDim S65536x32 ![] bcast_S_S65536x32 main_cst_4
  let main_v16 : IVec S65536x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x32 : Shape := ⟨2, ![8192, 32]⟩
abbrev S16384x32 : Shape := ⟨2, ![16384, 32]⟩
abbrev S32768x32 : Shape := ⟨2, ![32768, 32]⟩
abbrev S65536x32 : Shape := ⟨2, ![65536, 32]⟩
abbrev S131072x32 : Shape := ⟨2, ![131072, 32]⟩
abbrev S262144x32 : Shape := ⟨2, ![262144, 32]⟩
abbrev S524288x32 : Shape := ⟨2, ![524288, 32]⟩
abbrev S1048576x32 : Shape := ⟨2, ![1048576, 32]⟩
abbrev S2097152x32 : Shape := ⟨2, ![2097152, 32]⟩
abbrev S8192x2 : Shape := ⟨2, ![8192, 2]⟩
abbrev S16384x2 : Shape := ⟨2, ![16384, 2]⟩
abbrev S32768x2 : Shape := ⟨2, ![32768, 2]⟩
abbrev S65536x2 : Shape := ⟨2, ![65536, 2]⟩
abbrev S131072x2 : Shape := ⟨2, ![131072, 2]⟩
abbrev S262144x2 : Shape := ⟨2, ![262144, 2]⟩
abbrev S524288x2 : Shape := ⟨2, ![524288, 2]⟩
abbrev S1048576x2 : Shape := ⟨2, ![1048576, 2]⟩
abbrev S32x64 : Shape := ⟨2, ![32, 64]⟩
abbrev S64 : Shape := ⟨1, ![64]⟩
abbrev S192x64 : Shape := ⟨2, ![192, 64]⟩
abbrev S128x64 : Shape := ⟨2, ![128, 64]⟩
abbrev S64x64 : Shape := ⟨2, ![64, 64]⟩
abbrev S2097152x64 : Shape := ⟨2, ![2097152, 64]⟩
abbrev S16384x64 : Shape := ⟨2, ![16384, 64]⟩
abbrev S1x64 : Shape := ⟨2, ![1, 64]⟩
abbrev S_ : Shape := ⟨0, ![]⟩
abbrev S1048576x2x1 : Shape := ⟨3, ![1048576, 2, 1]⟩
abbrev S1 : Shape := ⟨1, ![1]⟩
abbrev S1x1x1 : Shape := ⟨3, ![1, 1, 1]⟩
abbrev S1048576x2x64 : Shape := ⟨3, ![1048576, 2, 64]⟩
abbrev S1048576x128 : Shape := ⟨2, ![1048576, 128]⟩
abbrev S1048576x64 : Shape := ⟨2, ![1048576, 64]⟩
abbrev S16384x128 : Shape := ⟨2, ![16384, 128]⟩
abbrev S524288x2x1 : Shape := ⟨3, ![524288, 2, 1]⟩
abbrev S524288x2x64 : Shape := ⟨3, ![524288, 2, 64]⟩
abbrev S524288x128 : Shape := ⟨2, ![524288, 128]⟩
abbrev S524288x64 : Shape := ⟨2, ![524288, 64]⟩
abbrev S262144x2x1 : Shape := ⟨3, ![262144, 2, 1]⟩
abbrev S262144x2x64 : Shape := ⟨3, ![262144, 2, 64]⟩
abbrev S262144x128 : Shape := ⟨2, ![262144, 128]⟩
abbrev S262144x64 : Shape := ⟨2, ![262144, 64]⟩
abbrev S131072x2x1 : Shape := ⟨3, ![131072, 2, 1]⟩
abbrev S131072x2x64 : Shape := ⟨3, ![131072, 2, 64]⟩
abbrev S131072x128 : Shape := ⟨2, ![131072, 128]⟩
abbrev S131072x64 : Shape := ⟨2, ![131072, 64]⟩
abbrev S65536x2x1 : Shape := ⟨3, ![65536, 2, 1]⟩
abbrev S65536x2x64 : Shape := ⟨3, ![65536, 2, 64]⟩
abbrev S65536x128 : Shape := ⟨2, ![65536, 128]⟩
abbrev S65536x64 : Shape := ⟨2, ![65536, 64]⟩
abbrev S32768x2x1 : Shape := ⟨3, ![32768, 2, 1]⟩
abbrev S32768x2x64 : Shape := ⟨3, ![32768, 2, 64]⟩
abbrev S32768x128 : Shape := ⟨2, ![32768, 128]⟩
abbrev S32768x64 : Shape := ⟨2, ![32768, 64]⟩
abbrev S16384x2x1 : Shape := ⟨3, ![16384, 2, 1]⟩
abbrev S16384x2x64 : Shape := ⟨3, ![16384, 2, 64]⟩
abbrev S8192x2x1 : Shape := ⟨3, ![8192, 2, 1]⟩
abbrev S8192x2x64 : Shape := ⟨3, ![8192, 2, 64]⟩
abbrev S8192x128 : Shape := ⟨2, ![8192, 128]⟩
abbrev S8192x64 : Shape := ⟨2, ![8192, 64]⟩

abbrev nBuf : Space → Nat
  | .hbm => 224
  | .vmem => 88
  | .smem => 0
  | _ => 0

abbrev hbmTy0_0 (i : Nat) : BufTy := match i % 128 with
  | 0 => ⟨S8192x32, .f32⟩
  | 1 => ⟨S16384x32, .f32⟩
  | 2 => ⟨S32768x32, .f32⟩
  | 3 => ⟨S65536x32, .f32⟩
  | 4 => ⟨S131072x32, .f32⟩
  | 5 => ⟨S262144x32, .f32⟩
  | 6 => ⟨S524288x32, .f32⟩
  | 7 => ⟨S1048576x32, .f32⟩
  | 8 => ⟨S2097152x32, .f32⟩
  | 9 => ⟨S8192x2, .i32⟩
  | 10 => ⟨S16384x2, .i32⟩
  | 11 => ⟨S32768x2, .i32⟩
  | 12 => ⟨S65536x2, .i32⟩
  | 13 => ⟨S131072x2, .i32⟩
  | 14 => ⟨S262144x2, .i32⟩
  | 15 => ⟨S524288x2, .i32⟩
  | 16 => ⟨S1048576x2, .i32⟩
  | 17 => ⟨S32x64, .f32⟩
  | 18 => ⟨S64, .f32⟩
  | 19 => ⟨S192x64, .f32⟩
  | 20 => ⟨S64, .f32⟩
  | 21 => ⟨S128x64, .f32⟩
  | 22 => ⟨S64x64, .f32⟩
  | 23 => ⟨S2097152x64, .f32⟩
  | 24 => ⟨S_, .i32⟩
  | 25 => ⟨S1048576x2, .i32⟩
  | 26 => ⟨S1048576x2, .i1⟩
  | 27 => ⟨S_, .i32⟩
  | 28 => ⟨S1048576x2, .i32⟩
  | 29 => ⟨S1048576x2, .i32⟩
  | 30 => ⟨S1048576x2, .i32⟩
  | 31 => ⟨S1048576x2x1, .i32⟩
  | 32 => ⟨S1, .i32⟩
  | 33 => ⟨S_, .i32⟩
  | 34 => ⟨S1048576x2x1, .i32⟩
  | 35 => ⟨S1048576x2x1, .i1⟩
  | 36 => ⟨S1x1x1, .i32⟩
  | 37 => ⟨S1048576x2x1, .i32⟩
  | 38 => ⟨S1048576x2x1, .i1⟩
  | 39 => ⟨S1048576x2x1, .i1⟩
  | 40 => ⟨S_, .i1⟩
  | 41 => ⟨S1048576x2, .i1⟩
  | 42 => ⟨S1048576x2x64, .f32⟩
  | 43 => ⟨S1048576x2x64, .i1⟩
  | 44 => ⟨S_, .f32⟩
  | 45 => ⟨S1048576x2x64, .f32⟩
  | 46 => ⟨S1048576x2x64, .f32⟩
  | 47 => ⟨S1048576x128, .f32⟩
  | 48 => ⟨S1048576x64, .f32⟩
  | 49 => ⟨S_, .i32⟩
  | 50 => ⟨S524288x2, .i32⟩
  | 51 => ⟨S524288x2, .i1⟩
  | 52 => ⟨S_, .i32⟩
  | 53 => ⟨S524288x2, .i32⟩
  | 54 => ⟨S524288x2, .i32⟩
  | 55 => ⟨S524288x2, .i32⟩
  | 56 => ⟨S524288x2x1, .i32⟩
  | 57 => ⟨S1, .i32⟩
  | 58 => ⟨S_, .i32⟩
  | 59 => ⟨S524288x2x1, .i32⟩
  | 60 => ⟨S524288x2x1, .i1⟩
  | 61 => ⟨S1x1x1, .i32⟩
  | 62 => ⟨S524288x2x1, .i32⟩
  | 63 => ⟨S524288x2x1, .i1⟩
  | 64 => ⟨S524288x2x1, .i1⟩
  | 65 => ⟨S_, .i1⟩
  | 66 => ⟨S524288x2, .i1⟩
  | 67 => ⟨S524288x2x64, .f32⟩
  | 68 => ⟨S524288x2x64, .i1⟩
  | 69 => ⟨S_, .f32⟩
  | 70 => ⟨S524288x2x64, .f32⟩
  | 71 => ⟨S524288x2x64, .f32⟩
  | 72 => ⟨S524288x128, .f32⟩
  | 73 => ⟨S524288x64, .f32⟩
  | 74 => ⟨S_, .i32⟩
  | 75 => ⟨S262144x2, .i32⟩
  | 76 => ⟨S262144x2, .i1⟩
  | 77 => ⟨S_, .i32⟩
  | 78 => ⟨S262144x2, .i32⟩
  | 79 => ⟨S262144x2, .i32⟩
  | 80 => ⟨S262144x2, .i32⟩
  | 81 => ⟨S262144x2x1, .i32⟩
  | 82 => ⟨S1, .i32⟩
  | 83 => ⟨S_, .i32⟩
  | 84 => ⟨S262144x2x1, .i32⟩
  | 85 => ⟨S262144x2x1, .i1⟩
  | 86 => ⟨S1x1x1, .i32⟩
  | 87 => ⟨S262144x2x1, .i32⟩
  | 88 => ⟨S262144x2x1, .i1⟩
  | 89 => ⟨S262144x2x1, .i1⟩
  | 90 => ⟨S_, .i1⟩
  | 91 => ⟨S262144x2, .i1⟩
  | 92 => ⟨S262144x2x64, .f32⟩
  | 93 => ⟨S262144x2x64, .i1⟩
  | 94 => ⟨S_, .f32⟩
  | 95 => ⟨S262144x2x64, .f32⟩
  | 96 => ⟨S262144x2x64, .f32⟩
  | 97 => ⟨S262144x128, .f32⟩
  | 98 => ⟨S262144x64, .f32⟩
  | 99 => ⟨S_, .i32⟩
  | 100 => ⟨S131072x2, .i32⟩
  | 101 => ⟨S131072x2, .i1⟩
  | 102 => ⟨S_, .i32⟩
  | 103 => ⟨S131072x2, .i32⟩
  | 104 => ⟨S131072x2, .i32⟩
  | 105 => ⟨S131072x2, .i32⟩
  | 106 => ⟨S131072x2x1, .i32⟩
  | 107 => ⟨S1, .i32⟩
  | 108 => ⟨S_, .i32⟩
  | 109 => ⟨S131072x2x1, .i32⟩
  | 110 => ⟨S131072x2x1, .i1⟩
  | 111 => ⟨S1x1x1, .i32⟩
  | 112 => ⟨S131072x2x1, .i32⟩
  | 113 => ⟨S131072x2x1, .i1⟩
  | 114 => ⟨S131072x2x1, .i1⟩
  | 115 => ⟨S_, .i1⟩
  | 116 => ⟨S131072x2, .i1⟩
  | 117 => ⟨S131072x2x64, .f32⟩
  | 118 => ⟨S131072x2x64, .i1⟩
  | 119 => ⟨S_, .f32⟩
  | 120 => ⟨S131072x2x64, .f32⟩
  | 121 => ⟨S131072x2x64, .f32⟩
  | 122 => ⟨S131072x128, .f32⟩
  | 123 => ⟨S131072x64, .f32⟩
  | 124 => ⟨S_, .i32⟩
  | 125 => ⟨S65536x2, .i32⟩
  | 126 => ⟨S65536x2, .i1⟩
  | 127 => ⟨S_, .i32⟩
  | _ => ⟨S8192x32, .f32⟩

abbrev hbmTy0_1 (i : Nat) : BufTy := match i % 128 with
  | 0 => ⟨S65536x2, .i32⟩
  | 1 => ⟨S65536x2, .i32⟩
  | 2 => ⟨S65536x2, .i32⟩
  | 3 => ⟨S65536x2x1, .i32⟩
  | 4 => ⟨S1, .i32⟩
  | 5 => ⟨S_, .i32⟩
  | 6 => ⟨S65536x2x1, .i32⟩
  | 7 => ⟨S65536x2x1, .i1⟩
  | 8 => ⟨S1x1x1, .i32⟩
  | 9 => ⟨S65536x2x1, .i32⟩
  | 10 => ⟨S65536x2x1, .i1⟩
  | 11 => ⟨S65536x2x1, .i1⟩
  | 12 => ⟨S_, .i1⟩
  | 13 => ⟨S65536x2, .i1⟩
  | 14 => ⟨S65536x2x64, .f32⟩
  | 15 => ⟨S65536x2x64, .i1⟩
  | 16 => ⟨S_, .f32⟩
  | 17 => ⟨S65536x2x64, .f32⟩
  | 18 => ⟨S65536x2x64, .f32⟩
  | 19 => ⟨S65536x128, .f32⟩
  | 20 => ⟨S65536x64, .f32⟩
  | 21 => ⟨S_, .i32⟩
  | 22 => ⟨S32768x2, .i32⟩
  | 23 => ⟨S32768x2, .i1⟩
  | 24 => ⟨S_, .i32⟩
  | 25 => ⟨S32768x2, .i32⟩
  | 26 => ⟨S32768x2, .i32⟩
  | 27 => ⟨S32768x2, .i32⟩
  | 28 => ⟨S32768x2x1, .i32⟩
  | 29 => ⟨S1, .i32⟩
  | 30 => ⟨S_, .i32⟩
  | 31 => ⟨S32768x2x1, .i32⟩
  | 32 => ⟨S32768x2x1, .i1⟩
  | 33 => ⟨S1x1x1, .i32⟩
  | 34 => ⟨S32768x2x1, .i32⟩
  | 35 => ⟨S32768x2x1, .i1⟩
  | 36 => ⟨S32768x2x1, .i1⟩
  | 37 => ⟨S_, .i1⟩
  | 38 => ⟨S32768x2, .i1⟩
  | 39 => ⟨S32768x2x64, .f32⟩
  | 40 => ⟨S32768x2x64, .i1⟩
  | 41 => ⟨S_, .f32⟩
  | 42 => ⟨S32768x2x64, .f32⟩
  | 43 => ⟨S32768x2x64, .f32⟩
  | 44 => ⟨S32768x128, .f32⟩
  | 45 => ⟨S32768x64, .f32⟩
  | 46 => ⟨S_, .i32⟩
  | 47 => ⟨S16384x2, .i32⟩
  | 48 => ⟨S16384x2, .i1⟩
  | 49 => ⟨S_, .i32⟩
  | 50 => ⟨S16384x2, .i32⟩
  | 51 => ⟨S16384x2, .i32⟩
  | 52 => ⟨S16384x2, .i32⟩
  | 53 => ⟨S16384x2x1, .i32⟩
  | 54 => ⟨S1, .i32⟩
  | 55 => ⟨S_, .i32⟩
  | 56 => ⟨S16384x2x1, .i32⟩
  | 57 => ⟨S16384x2x1, .i1⟩
  | 58 => ⟨S1x1x1, .i32⟩
  | 59 => ⟨S16384x2x1, .i32⟩
  | 60 => ⟨S16384x2x1, .i1⟩
  | 61 => ⟨S16384x2x1, .i1⟩
  | 62 => ⟨S_, .i1⟩
  | 63 => ⟨S16384x2, .i1⟩
  | 64 => ⟨S16384x2x64, .f32⟩
  | 65 => ⟨S16384x2x64, .i1⟩
  | 66 => ⟨S_, .f32⟩
  | 67 => ⟨S16384x2x64, .f32⟩
  | 68 => ⟨S16384x2x64, .f32⟩
  | 69 => ⟨S16384x128, .f32⟩
  | 70 => ⟨S16384x64, .f32⟩
  | 71 => ⟨S_, .i32⟩
  | 72 => ⟨S8192x2, .i32⟩
  | 73 => ⟨S8192x2, .i1⟩
  | 74 => ⟨S_, .i32⟩
  | 75 => ⟨S8192x2, .i32⟩
  | 76 => ⟨S8192x2, .i32⟩
  | 77 => ⟨S8192x2, .i32⟩
  | 78 => ⟨S8192x2x1, .i32⟩
  | 79 => ⟨S1, .i32⟩
  | 80 => ⟨S_, .i32⟩
  | 81 => ⟨S8192x2x1, .i32⟩
  | 82 => ⟨S8192x2x1, .i1⟩
  | 83 => ⟨S1x1x1, .i32⟩
  | 84 => ⟨S8192x2x1, .i32⟩
  | 85 => ⟨S8192x2x1, .i1⟩
  | 86 => ⟨S8192x2x1, .i1⟩
  | 87 => ⟨S_, .i1⟩
  | 88 => ⟨S8192x2, .i1⟩
  | 89 => ⟨S8192x2x64, .f32⟩
  | 90 => ⟨S8192x2x64, .i1⟩
  | 91 => ⟨S_, .f32⟩
  | 92 => ⟨S8192x2x64, .f32⟩
  | 93 => ⟨S8192x2x64, .f32⟩
  | 94 => ⟨S8192x128, .f32⟩
  | 95 => ⟨S8192x64, .f32⟩
  | _ => ⟨S8192x32, .f32⟩

abbrev hbmTy (i : Nat) : BufTy := match i / 128 with
  | 0 => hbmTy0_0 i
  | 1 => hbmTy0_1 i
  | _ => ⟨S8192x32, .f32⟩

abbrev bufTy : (tb : Table) → Fin (tcTables nBuf tb) → BufTy
  | .hbm, ⟨i, _⟩ => hbmTy i
  | .local _ .vmem, ⟨0, _⟩ => ⟨S16384x32, .f32⟩
  | .local _ .vmem, ⟨1, _⟩ => ⟨S16384x32, .f32⟩
  | .local _ .vmem, ⟨2, _⟩ => ⟨S32x64, .f32⟩
  | .local _ .vmem, ⟨3, _⟩ => ⟨S64, .f32⟩
  | .local _ .vmem, ⟨4, _⟩ => ⟨S16384x64, .f32⟩
  | .local _ .vmem, ⟨5, _⟩ => ⟨S16384x64, .f32⟩
  | .local _ .vmem, ⟨6, _⟩ => ⟨S16384x32, .f32⟩
  | .local _ .vmem, ⟨7, _⟩ => ⟨S16384x32, .f32⟩
  | .local _ .vmem, ⟨8, _⟩ => ⟨S16384x128, .f32⟩
  | .local _ .vmem, ⟨9, _⟩ => ⟨S16384x128, .f32⟩
  | .local _ .vmem, ⟨10, _⟩ => ⟨S32x64, .f32⟩
  | .local _ .vmem, ⟨11, _⟩ => ⟨S64, .f32⟩
  | .local _ .vmem, ⟨12, _⟩ => ⟨S128x64, .f32⟩
  | .local _ .vmem, ⟨13, _⟩ => ⟨S64x64, .f32⟩
  | .local _ .vmem, ⟨14, _⟩ => ⟨S64, .f32⟩
  | .local _ .vmem, ⟨15, _⟩ => ⟨S16384x64, .f32⟩
  | .local _ .vmem, ⟨16, _⟩ => ⟨S16384x64, .f32⟩
  | .local _ .vmem, ⟨17, _⟩ => ⟨S16384x32, .f32⟩
  | .local _ .vmem, ⟨18, _⟩ => ⟨S16384x32, .f32⟩
  | .local _ .vmem, ⟨19, _⟩ => ⟨S16384x128, .f32⟩
  | .local _ .vmem, ⟨20, _⟩ => ⟨S16384x128, .f32⟩
  | .local _ .vmem, ⟨21, _⟩ => ⟨S32x64, .f32⟩
  | .local _ .vmem, ⟨22, _⟩ => ⟨S64, .f32⟩
  | .local _ .vmem, ⟨23, _⟩ => ⟨S128x64, .f32⟩
  | .local _ .vmem, ⟨24, _⟩ => ⟨S64x64, .f32⟩
  | .local _ .vmem, ⟨25, _⟩ => ⟨S64, .f32⟩
  | .local _ .vmem, ⟨26, _⟩ => ⟨S16384x64, .f32⟩
  | .local _ .vmem, ⟨27, _⟩ => ⟨S16384x64, .f32⟩
  | .local _ .vmem, ⟨28, _⟩ => ⟨S16384x32, .f32⟩
  | .local _ .vmem, ⟨29, _⟩ => ⟨S16384x32, .f32⟩
  | .local _ .vmem, ⟨30, _⟩ => ⟨S16384x128, .f32⟩
  | .local _ .vmem, ⟨31, _⟩ => ⟨S16384x128, .f32⟩
  | .local _ .vmem, ⟨32, _⟩ => ⟨S32x64, .f32⟩
  | .local _ .vmem, ⟨33, _⟩ => ⟨S64, .f32⟩
  | .local _ .vmem, ⟨34, _⟩ => ⟨S128x64, .f32⟩
  | .local _ .vmem, ⟨35, _⟩ => ⟨S64x64, .f32⟩
  | .local _ .vmem, ⟨36, _⟩ => ⟨S64, .f32⟩
  | .local _ .vmem, ⟨37, _⟩ => ⟨S16384x64, .f32⟩
  | .local _ .vmem, ⟨38, _⟩ => ⟨S16384x64, .f32⟩
  | .local _ .vmem, ⟨39, _⟩ => ⟨S16384x32, .f32⟩
  | .local _ .vmem, ⟨40, _⟩ => ⟨S16384x32, .f32⟩
  | .local _ .vmem, ⟨41, _⟩ => ⟨S16384x128, .f32⟩
  | .local _ .vmem, ⟨42, _⟩ => ⟨S16384x128, .f32⟩
  | .local _ .vmem, ⟨43, _⟩ => ⟨S32x64, .f32⟩
  | .local _ .vmem, ⟨44, _⟩ => ⟨S64, .f32⟩
  | .local _ .vmem, ⟨45, _⟩ => ⟨S128x64, .f32⟩
  | .local _ .vmem, ⟨46, _⟩ => ⟨S64x64, .f32⟩
  | .local _ .vmem, ⟨47, _⟩ => ⟨S64, .f32⟩
  | .local _ .vmem, ⟨48, _⟩ => ⟨S16384x64, .f32⟩
  | .local _ .vmem, ⟨49, _⟩ => ⟨S16384x64, .f32⟩
  | .local _ .vmem, ⟨50, _⟩ => ⟨S16384x32, .f32⟩
  | .local _ .vmem, ⟨51, _⟩ => ⟨S16384x32, .f32⟩
  | .local _ .vmem, ⟨52, _⟩ => ⟨S16384x128, .f32⟩
  | .local _ .vmem, ⟨53, _⟩ => ⟨S16384x128, .f32⟩
  | .local _ .vmem, ⟨54, _⟩ => ⟨S32x64, .f32⟩
  | .local _ .vmem, ⟨55, _⟩ => ⟨S64, .f32⟩
  | .local _ .vmem, ⟨56, _⟩ => ⟨S128x64, .f32⟩
  | .local _ .vmem, ⟨57, _⟩ => ⟨S64x64, .f32⟩
  | .local _ .vmem, ⟨58, _⟩ => ⟨S64, .f32⟩
  | .local _ .vmem, ⟨59, _⟩ => ⟨S16384x64, .f32⟩
  | .local _ .vmem, ⟨60, _⟩ => ⟨S16384x64, .f32⟩
  | .local _ .vmem, ⟨61, _⟩ => ⟨S16384x32, .f32⟩
  | .local _ .vmem, ⟨62, _⟩ => ⟨S16384x32, .f32⟩
  | .local _ .vmem, ⟨63, _⟩ => ⟨S16384x128, .f32⟩
  | .local _ .vmem, ⟨64, _⟩ => ⟨S16384x128, .f32⟩
  | .local _ .vmem, ⟨65, _⟩ => ⟨S32x64, .f32⟩
  | .local _ .vmem, ⟨66, _⟩ => ⟨S64, .f32⟩
  | .local _ .vmem, ⟨67, _⟩ => ⟨S128x64, .f32⟩
  | .local _ .vmem, ⟨68, _⟩ => ⟨S64x64, .f32⟩
  | .local _ .vmem, ⟨69, _⟩ => ⟨S64, .f32⟩
  | .local _ .vmem, ⟨70, _⟩ => ⟨S16384x64, .f32⟩
  | .local _ .vmem, ⟨71, _⟩ => ⟨S16384x64, .f32⟩
  | .local _ .vmem, ⟨72, _⟩ => ⟨S16384x32, .f32⟩
  | .local _ .vmem, ⟨73, _⟩ => ⟨S16384x128, .f32⟩
  | .local _ .vmem, ⟨74, _⟩ => ⟨S32x64, .f32⟩
  | .local _ .vmem, ⟨75, _⟩ => ⟨S64, .f32⟩
  | .local _ .vmem, ⟨76, _⟩ => ⟨S128x64, .f32⟩
  | .local _ .vmem, ⟨77, _⟩ => ⟨S64x64, .f32⟩
  | .local _ .vmem, ⟨78, _⟩ => ⟨S64, .f32⟩
  | .local _ .vmem, ⟨79, _⟩ => ⟨S16384x64, .f32⟩
  | .local _ .vmem, ⟨80, _⟩ => ⟨S8192x32, .f32⟩
  | .local _ .vmem, ⟨81, _⟩ => ⟨S8192x128, .f32⟩
  | .local _ .vmem, ⟨82, _⟩ => ⟨S32x64, .f32⟩
  | .local _ .vmem, ⟨83, _⟩ => ⟨S64, .f32⟩
  | .local _ .vmem, ⟨84, _⟩ => ⟨S128x64, .f32⟩
  | .local _ .vmem, ⟨85, _⟩ => ⟨S64x64, .f32⟩
  | .local _ .vmem, ⟨86, _⟩ => ⟨S64, .f32⟩
  | .local _ .vmem, ⟨87, _⟩ => ⟨S8192x64, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v9 : Ref sig .tc := ⟨.hbm, 96, rfl⟩
abbrev main_v10 : Ref sig .tc := ⟨.hbm, 97, rfl⟩
abbrev main_v11 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v12 : Ref sig .tc := ⟨.hbm, 121, rfl⟩
abbrev main_v13 : Ref sig .tc := ⟨.hbm, 122, rfl⟩
abbrev main_v14 : Ref sig .tc := ⟨.hbm, 123, rfl⟩
abbrev main_call4_c : Ref sig .tc := ⟨.hbm, 124, rfl⟩
abbrev main_call4_v0 : Ref sig .tc := ⟨.hbm, 125, rfl⟩
abbrev main_call4_v1 : Ref sig .tc := ⟨.hbm, 126, rfl⟩
abbrev main_call4_c_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_c_1 : Ref sig .tc := ⟨.hbm, 132, rfl⟩
abbrev main_call4_c_2 : Ref sig .tc := ⟨.hbm, 133, rfl⟩
abbrev main_call4_v6 : Ref sig .tc := ⟨.hbm, 134, rfl⟩
abbrev main_call4_v7 : Ref sig .tc := ⟨.hbm, 135, rfl⟩
abbrev main_call4_v8 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_3 : Ref sig .tc := ⟨.hbm, 140, rfl⟩
abbrev main_call4_v12 : Ref sig .tc := ⟨.hbm, 141, rfl⟩
abbrev main_call4_v13 : Ref sig .tc := ⟨.hbm, 142, rfl⟩
abbrev main_call4_v14 : Ref sig .tc := ⟨.hbm, 143, rfl⟩
abbrev main_call4_cst : Ref sig .tc := ⟨.hbm, 144, rfl⟩
abbrev main_call4_v15 : Ref sig .tc := ⟨.hbm, 145, rfl⟩
abbrev main_v15 : Ref sig .tc := ⟨.hbm, 146, rfl⟩
abbrev main_v16 : Ref sig .tc := ⟨.hbm, 147, rfl⟩
abbrev main_v17 : Ref sig .tc := ⟨.hbm, 148, rfl⟩
abbrev main_call5_c : Ref sig .tc := ⟨.hbm, 149, rfl⟩
abbrev main_call5_v0 : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_c_1 : Ref sig .tc := ⟨.hbm, 157, rfl⟩
abbrev main_call5_c_2 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_3 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_cst : Ref sig .tc := ⟨.hbm, 169, rfl⟩
abbrev main_call5_v15 : Ref sig .tc := ⟨.hbm, 170, rfl⟩
abbrev main_v18 : Ref sig .tc := ⟨.hbm, 171, rfl⟩
abbrev main_v19 : Ref sig .tc := ⟨.hbm, 172, rfl⟩
abbrev main_v20 : Ref sig .tc := ⟨.hbm, 173, rfl⟩
abbrev main_call6_c : Ref sig .tc := ⟨.hbm, 174, rfl⟩
abbrev main_call6_v0 : Ref sig .tc := ⟨.hbm, 175, rfl⟩
abbrev main_call6_v1 : Ref sig .tc := ⟨.hbm, 176, rfl⟩
abbrev main_call6_c_0 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_c_1 : Ref sig .tc := ⟨.hbm, 182, rfl⟩
abbrev main_call6_c_2 : Ref sig .tc := ⟨.hbm, 183, rfl⟩
abbrev main_call6_v6 : Ref sig .tc := ⟨.hbm, 184, rfl⟩
abbrev main_call6_v7 : Ref sig .tc := ⟨.hbm, 185, rfl⟩
abbrev main_call6_v8 : Ref sig .tc := ⟨.hbm, 186, rfl⟩
abbrev main_call6_v9 : Ref sig .tc := ⟨.hbm, 187, rfl⟩
abbrev main_call6_v10 : Ref sig .tc := ⟨.hbm, 188, rfl⟩
abbrev main_call6_v11 : Ref sig .tc := ⟨.hbm, 189, rfl⟩
abbrev main_call6_c_3 : Ref sig .tc := ⟨.hbm, 190, rfl⟩
abbrev main_call6_v12 : Ref sig .tc := ⟨.hbm, 191, rfl⟩
abbrev main_call6_v13 : Ref sig .tc := ⟨.hbm, 192, rfl⟩
abbrev main_call6_v14 : Ref sig .tc := ⟨.hbm, 193, rfl⟩
abbrev main_call6_cst : Ref sig .tc := ⟨.hbm, 194, rfl⟩
abbrev main_call6_v15 : Ref sig .tc := ⟨.hbm, 195, rfl⟩
abbrev main_v21 : Ref sig .tc := ⟨.hbm, 196, rfl⟩
abbrev main_v22 : Ref sig .tc := ⟨.hbm, 197, rfl⟩
abbrev main_v23 : Ref sig .tc := ⟨.hbm, 198, rfl⟩
abbrev main_call7_c : Ref sig .tc := ⟨.hbm, 199, rfl⟩
abbrev main_call7_v0 : Ref sig .tc := ⟨.hbm, 200, rfl⟩
abbrev main_call7_v1 : Ref sig .tc := ⟨.hbm, 201, rfl⟩
abbrev main_call7_c_0 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_call7_v5 : Ref sig .tc := ⟨.hbm, 206, rfl⟩
abbrev main_call7_c_1 : Ref sig .tc := ⟨.hbm, 207, rfl⟩
abbrev main_call7_c_2 : Ref sig .tc := ⟨.hbm, 208, rfl⟩
abbrev main_call7_v6 : Ref sig .tc := ⟨.hbm, 209, rfl⟩
abbrev main_call7_v7 : Ref sig .tc := ⟨.hbm, 210, rfl⟩
abbrev main_call7_v8 : Ref sig .tc := ⟨.hbm, 211, rfl⟩
abbrev main_call7_v9 : Ref sig .tc := ⟨.hbm, 212, rfl⟩
abbrev main_call7_v10 : Ref sig .tc := ⟨.hbm, 213, rfl⟩
abbrev main_call7_v11 : Ref sig .tc := ⟨.hbm, 214, rfl⟩
abbrev main_call7_c_3 : Ref sig .tc := ⟨.hbm, 215, rfl⟩
abbrev main_call7_v12 : Ref sig .tc := ⟨.hbm, 216, rfl⟩
abbrev main_call7_v13 : Ref sig .tc := ⟨.hbm, 217, rfl⟩
abbrev main_call7_v14 : Ref sig .tc := ⟨.hbm, 218, rfl⟩
abbrev main_call7_cst : Ref sig .tc := ⟨.hbm, 219, rfl⟩
abbrev main_call7_v15 : Ref sig .tc := ⟨.hbm, 220, rfl⟩
abbrev main_v24 : Ref sig .tc := ⟨.hbm, 221, rfl⟩
abbrev main_v25 : Ref sig .tc := ⟨.hbm, 222, rfl⟩
abbrev main_v26 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg7_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg7_1 : Ref sig .tc := ⟨.vmem, 71, rfl⟩
abbrev cc7_stg0_0 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg7_0 : Ref sig .tc := ⟨.vmem, 79, rfl⟩
abbrev cc8_stg0_0 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg6_0 : Ref sig .tc := ⟨.vmem, 86, rfl⟩
abbrev cc8_stg7_0 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem7_0 : DmaSem sig := 59
abbrev cc5_sem7_1 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem7_1 : DmaSem sig := 71
abbrev cc7_sem0_0 : DmaSem sig := 72
abbrev cc7_sem1_0 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem6_0 : DmaSem sig := 78
abbrev cc7_sem7_0 : DmaSem sig := 79
abbrev cc8_sem0_0 : DmaSem sig := 80
abbrev cc8_sem1_0 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem6_0 : DmaSem sig := 86
abbrev cc8_sem7_0 : DmaSem sig := 87

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S16384x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S16384x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16384x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16384x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S16384x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16384x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16384x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S16384x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16384x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16384x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S16384x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S16384x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S16384x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S16384x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S16384x32 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S16384x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S32x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S16384x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S8192x32 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S8192x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S32x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S8192x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![true]

class Facts₀ : Prop where
  slices_S192x64_S128x64_0_0 : S192x64.Slices ![0, 0] S128x64
  slices_S192x64_S64x64_128_0 : S192x64.Slices ![128, 0] S64x64
  inb_S16384x32_S16384x32_0_0 : ∀ a, (![0, 0] : Fin 2 → Nat) a + S16384x32.size a ≤ S16384x32.size a
  h_S16384x32 : 0 < S16384x32.numel
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S16384x64_S16384x64_0_0 : ∀ a, (![0, 0] : Fin 2 → Nat) a + S16384x64.size a ≤ S16384x64.size a
  h_S16384x64 : 0 < S16384x64.numel
  bcast_S_S1048576x2 : S_.BroadcastsInDim S1048576x2 (![] : Fin 0 → Fin S1048576x2.rank)
  bcast_S1048576x2_S1048576x2x1_0_1 : S1048576x2.BroadcastsInDim S1048576x2x1 (![0, 1] : Fin 2 → Fin S1048576x2x1.rank)
  bcast_S_S1048576x2x1 : S_.BroadcastsInDim S1048576x2x1 (![] : Fin 0 → Fin S1048576x2x1.rank)
  bcast_S1_S1x1x1_2 : S1.BroadcastsInDim S1x1x1 (![2] : Fin 1 → Fin S1x1x1.rank)
  bcast_S1x1x1_S1048576x2x1_0_1_2 : S1x1x1.BroadcastsInDim S1048576x2x1 (![0, 1, 2] : Fin 3 → Fin S1048576x2x1.rank)
  reducesTo_S1048576x2x1_S1048576x2_d2 : S1048576x2x1.ReducesTo [2] S1048576x2
  h_S_ : 0 < S_.numel
  bcast_S1048576x2_S1048576x2x64_0_1 : S1048576x2.BroadcastsInDim S1048576x2x64 (![0, 1] : Fin 2 → Fin S1048576x2x64.rank)
  bcast_S_S1048576x2x64 : S_.BroadcastsInDim S1048576x2x64 (![] : Fin 0 → Fin S1048576x2x64.rank)
  shapeCasts_S1048576x2x64_S1048576x128 : S1048576x2x64.ShapeCasts S1048576x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S524288x2 : S_.BroadcastsInDim S524288x2 (![] : Fin 0 → Fin S524288x2.rank)
  bcast_S524288x2_S524288x2x1_0_1 : S524288x2.BroadcastsInDim S524288x2x1 (![0, 1] : Fin 2 → Fin S524288x2x1.rank)
  bcast_S_S524288x2x1 : S_.BroadcastsInDim S524288x2x1 (![] : Fin 0 → Fin S524288x2x1.rank)
  bcast_S1x1x1_S524288x2x1_0_1_2 : S1x1x1.BroadcastsInDim S524288x2x1 (![0, 1, 2] : Fin 3 → Fin S524288x2x1.rank)
  reducesTo_S524288x2x1_S524288x2_d2 : S524288x2x1.ReducesTo [2] S524288x2
  bcast_S524288x2_S524288x2x64_0_1 : S524288x2.BroadcastsInDim S524288x2x64 (![0, 1] : Fin 2 → Fin S524288x2x64.rank)
  bcast_S_S524288x2x64 : S_.BroadcastsInDim S524288x2x64 (![] : Fin 0 → Fin S524288x2x64.rank)
  shapeCasts_S524288x2x64_S524288x128 : S524288x2x64.ShapeCasts S524288x128
  bcast_S_S262144x2 : S_.BroadcastsInDim S262144x2 (![] : Fin 0 → Fin S262144x2.rank)
  bcast_S262144x2_S262144x2x1_0_1 : S262144x2.BroadcastsInDim S262144x2x1 (![0, 1] : Fin 2 → Fin S262144x2x1.rank)
  bcast_S_S262144x2x1 : S_.BroadcastsInDim S262144x2x1 (![] : Fin 0 → Fin S262144x2x1.rank)
  bcast_S1x1x1_S262144x2x1_0_1_2 : S1x1x1.BroadcastsInDim S262144x2x1 (![0, 1, 2] : Fin 3 → Fin S262144x2x1.rank)
  reducesTo_S262144x2x1_S262144x2_d2 : S262144x2x1.ReducesTo [2] S262144x2
  bcast_S262144x2_S262144x2x64_0_1 : S262144x2.BroadcastsInDim S262144x2x64 (![0, 1] : Fin 2 → Fin S262144x2x64.rank)
  bcast_S_S262144x2x64 : S_.BroadcastsInDim S262144x2x64 (![] : Fin 0 → Fin S262144x2x64.rank)
  shapeCasts_S262144x2x64_S262144x128 : S262144x2x64.ShapeCasts S262144x128
  bcast_S_S131072x2 : S_.BroadcastsInDim S131072x2 (![] : Fin 0 → Fin S131072x2.rank)
  bcast_S131072x2_S131072x2x1_0_1 : S131072x2.BroadcastsInDim S131072x2x1 (![0, 1] : Fin 2 → Fin S131072x2x1.rank)
  bcast_S_S131072x2x1 : S_.BroadcastsInDim S131072x2x1 (![] : Fin 0 → Fin S131072x2x1.rank)
  bcast_S1x1x1_S131072x2x1_0_1_2 : S1x1x1.BroadcastsInDim S131072x2x1 (![0, 1, 2] : Fin 3 → Fin S131072x2x1.rank)
  reducesTo_S131072x2x1_S131072x2_d2 : S131072x2x1.ReducesTo [2] S131072x2
  bcast_S131072x2_S131072x2x64_0_1 : S131072x2.BroadcastsInDim S131072x2x64 (![0, 1] : Fin 2 → Fin S131072x2x64.rank)
  bcast_S_S131072x2x64 : S_.BroadcastsInDim S131072x2x64 (![] : Fin 0 → Fin S131072x2x64.rank)
  shapeCasts_S131072x2x64_S131072x128 : S131072x2x64.ShapeCasts S131072x128
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  bcast_S_S65536x2x1 : S_.BroadcastsInDim S65536x2x1 (![] : Fin 0 → Fin S65536x2x1.rank)
  bcast_S1x1x1_S65536x2x1_0_1_2 : S1x1x1.BroadcastsInDim S65536x2x1 (![0, 1, 2] : Fin 3 → Fin S65536x2x1.rank)
  reducesTo_S65536x2x1_S65536x2_d2 : S65536x2x1.ReducesTo [2] S65536x2
  bcast_S65536x2_S65536x2x64_0_1 : S65536x2.BroadcastsInDim S65536x2x64 (![0, 1] : Fin 2 → Fin S65536x2x64.rank)
  bcast_S_S65536x2x64 : S_.BroadcastsInDim S65536x2x64 (![] : Fin 0 → Fin S65536x2x64.rank)
  shapeCasts_S65536x2x64_S65536x128 : S65536x2x64.ShapeCasts S65536x128
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  bcast_S_S32768x2x1 : S_.BroadcastsInDim S32768x2x1 (![] : Fin 0 → Fin S32768x2x1.rank)
  bcast_S1x1x1_S32768x2x1_0_1_2 : S1x1x1.BroadcastsInDim S32768x2x1 (![0, 1, 2] : Fin 3 → Fin S32768x2x1.rank)
  reducesTo_S32768x2x1_S32768x2_d2 : S32768x2x1.ReducesTo [2] S32768x2
  bcast_S32768x2_S32768x2x64_0_1 : S32768x2.BroadcastsInDim S32768x2x64 (![0, 1] : Fin 2 → Fin S32768x2x64.rank)
  bcast_S_S32768x2x64 : S_.BroadcastsInDim S32768x2x64 (![] : Fin 0 → Fin S32768x2x64.rank)
  shapeCasts_S32768x2x64_S32768x128 : S32768x2x64.ShapeCasts S32768x128
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  bcast_S_S16384x2x1 : S_.BroadcastsInDim S16384x2x1 (![] : Fin 0 → Fin S16384x2x1.rank)
  bcast_S1x1x1_S16384x2x1_0_1_2 : S1x1x1.BroadcastsInDim S16384x2x1 (![0, 1, 2] : Fin 3 → Fin S16384x2x1.rank)
  reducesTo_S16384x2x1_S16384x2_d2 : S16384x2x1.ReducesTo [2] S16384x2
  bcast_S16384x2_S16384x2x64_0_1 : S16384x2.BroadcastsInDim S16384x2x64 (![0, 1] : Fin 2 → Fin S16384x2x64.rank)
  bcast_S_S16384x2x64 : S_.BroadcastsInDim S16384x2x64 (![] : Fin 0 → Fin S16384x2x64.rank)
  shapeCasts_S16384x2x64_S16384x128 : S16384x2x64.ShapeCasts S16384x128
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  bcast_S_S8192x2x1 : S_.BroadcastsInDim S8192x2x1 (![] : Fin 0 → Fin S8192x2x1.rank)
  bcast_S1x1x1_S8192x2x1_0_1_2 : S1x1x1.BroadcastsInDim S8192x2x1 (![0, 1, 2] : Fin 3 → Fin S8192x2x1.rank)
  reducesTo_S8192x2x1_S8192x2_d2 : S8192x2x1.ReducesTo [2] S8192x2
  bcast_S8192x2_S8192x2x64_0_1 : S8192x2.BroadcastsInDim S8192x2x64 (![0, 1] : Fin 2 → Fin S8192x2x64.rank)
  bcast_S_S8192x2x64 : S_.BroadcastsInDim S8192x2x64 (![] : Fin 0 → Fin S8192x2x64.rank)
  shapeCasts_S8192x2x64_S8192x128 : S8192x2x64.ShapeCasts S8192x128
  inb_S8192x32_S8192x32_0_0 : ∀ a, (![0, 0] : Fin 2 → Nat) a + S8192x32.size a ≤ S8192x32.size a
  h_S8192x32 : 0 < S8192x32.numel
  broadcasts_S1x64_S8192x64 : S1x64.Broadcasts S8192x64
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x64_S8192x64_0_0 : ∀ a, (![0, 0] : Fin 2 → Nat) a + S8192x64.size a ≤ S8192x64.size a
  h_S8192x64 : 0 < S8192x64.numel
  dot_S16384x32_S32x64_S16384x64_1_0_0_1_n_n_wf : DotDims.WF S16384x32 S32x64 S16384x64 [1] [0] [0] [1] [] []
  gather_S2097152x64_S1048576x2x1_S1048576x2x64_2_0_n_n_0_2_164_wf : GatherDims.WF S2097152x64 S1048576x2x1 S1048576x2x64 [2] [0] [] [0] [] 2 ![1, 64]
  dot_S16384x128_S128x64_S16384x64_1_0_0_1_n_n_wf : DotDims.WF S16384x128 S128x64 S16384x64 [1] [0] [0] [1] [] []
  dot_S16384x64_S64x64_S16384x64_1_0_0_1_n_n_wf : DotDims.WF S16384x64 S64x64 S16384x64 [1] [0] [0] [1] [] []
  gather_S1048576x64_S524288x2x1_S524288x2x64_2_0_n_n_0_2_164_wf : GatherDims.WF S1048576x64 S524288x2x1 S524288x2x64 [2] [0] [] [0] [] 2 ![1, 64]
  gather_S524288x64_S262144x2x1_S262144x2x64_2_0_n_n_0_2_164_wf : GatherDims.WF S524288x64 S262144x2x1 S262144x2x64 [2] [0] [] [0] [] 2 ![1, 64]
  gather_S262144x64_S131072x2x1_S131072x2x64_2_0_n_n_0_2_164_wf : GatherDims.WF S262144x64 S131072x2x1 S131072x2x64 [2] [0] [] [0] [] 2 ![1, 64]
  gather_S131072x64_S65536x2x1_S65536x2x64_2_0_n_n_0_2_164_wf : GatherDims.WF S131072x64 S65536x2x1 S65536x2x64 [2] [0] [] [0] [] 2 ![1, 64]
  gather_S65536x64_S32768x2x1_S32768x2x64_2_0_n_n_0_2_164_wf : GatherDims.WF S65536x64 S32768x2x1 S32768x2x64 [2] [0] [] [0] [] 2 ![1, 64]
  gather_S32768x64_S16384x2x1_S16384x2x64_2_0_n_n_0_2_164_wf : GatherDims.WF S32768x64 S16384x2x1 S16384x2x64 [2] [0] [] [0] [] 2 ![1, 64]
  gather_S16384x64_S8192x2x1_S8192x2x64_2_0_n_n_0_2_164_wf : GatherDims.WF S16384x64 S8192x2x1 S8192x2x64 [2] [0] [] [0] [] 2 ![1, 64]
  dot_S8192x32_S32x64_S8192x64_1_0_0_1_n_n_wf : DotDims.WF S8192x32 S32x64 S8192x64 [1] [0] [0] [1] [] []
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S2097152x32.size a
  hwx0_0 : ∀ i : grid0.Coords, EltTy.bits .f32 = 32 ∨ (Rect.block (s := S2097152x32) S16384x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x64.size a ≤ S2097152x64.size a
  hwx0_3 : ∀ i : grid0.Coords, EltTy.bits .f32 = 32 ∨ (Rect.block (s := S2097152x64) S16384x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x32.size a ≤ S1048576x32.size a
  hwx1_0 : ∀ i : grid1.Coords, EltTy.bits .f32 = 32 ∨ (Rect.block (s := S1048576x32) S16384x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S1048576x128.size a
  hwx1_1 : ∀ i : grid1.Coords, EltTy.bits .f32 = 32 ∨ (Rect.block (s := S1048576x128) S16384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S16384x64.size a ≤ S1048576x64.size a
  hwx1_7 : ∀ i : grid1.Coords, EltTy.bits .f32 = 32 ∨ (Rect.block (s := S1048576x64) S16384x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x32.size a ≤ S524288x32.size a
  hwx2_0 : ∀ i : grid2.Coords, EltTy.bits .f32 = 32 ∨ (Rect.block (s := S524288x32) S16384x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x128.size a ≤ S524288x128.size a
  hwx2_1 : ∀ i : grid2.Coords, EltTy.bits .f32 = 32 ∨ (Rect.block (s := S524288x128) S16384x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S16384x64.size a ≤ S524288x64.size a
  hwx2_7 : ∀ i : grid2.Coords, EltTy.bits .f32 = 32 ∨ (Rect.block (s := S524288x64) S16384x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16384x32.size a ≤ S262144x32.size a
  hwx3_0 : ∀ i : grid3.Coords, EltTy.bits .f32 = 32 ∨ (Rect.block (s := S262144x32) S16384x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16384x128.size a ≤ S262144x128.size a
  hwx3_1 : ∀ i : grid3.Coords, EltTy.bits .f32 = 32 ∨ (Rect.block (s := S262144x128) S16384x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S16384x64.size a ≤ S262144x64.size a
  hwx3_7 : ∀ i : grid3.Coords, EltTy.bits .f32 = 32 ∨ (Rect.block (s := S262144x64) S16384x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16384x32.size a ≤ S131072x32.size a
  hwx4_0 : ∀ i : grid4.Coords, EltTy.bits .f32 = 32 ∨ (Rect.block (s := S131072x32) S16384x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S16384x128.size a ≤ S131072x128.size a
  hwx4_1 : ∀ i : grid4.Coords, EltTy.bits .f32 = 32 ∨ (Rect.block (s := S131072x128) S16384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x64.size a ≤ S32x64.size a
  hwx4_2 : ∀ i : grid4.Coords, EltTy.bits .f32 = 32 ∨ (Rect.block (s := S32x64) S32x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S16384x64.size a ≤ S131072x64.size a
  hwx4_7 : ∀ i : grid4.Coords, EltTy.bits .f32 = 32 ∨ (Rect.block (s := S131072x64) S16384x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16384x32.size a ≤ S65536x32.size a
  hwx5_0 : ∀ i : grid5.Coords, EltTy.bits .f32 = 32 ∨ (Rect.block (s := S65536x32) S16384x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S16384x128.size a ≤ S65536x128.size a
  hwx5_1 : ∀ i : grid5.Coords, EltTy.bits .f32 = 32 ∨ (Rect.block (s := S65536x128) S16384x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x64.size a ≤ S32x64.size a
  hwx5_2 : ∀ i : grid5.Coords, EltTy.bits .f32 = 32 ∨ (Rect.block (s := S32x64) S32x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x64.size a ≤ S128x64.size a
  hwx5_4 : ∀ i : grid5.Coords, EltTy.bits .f32 = 32 ∨ (Rect.block (s := S128x64) S128x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S16384x64.size a ≤ S65536x64.size a
  hwx5_7 : ∀ i : grid5.Coords, EltTy.bits .f32 = 32 ∨ (Rect.block (s := S65536x64) S16384x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S16384x32.size a ≤ S32768x32.size a
  hwx6_0 : ∀ i : grid6.Coords, EltTy.bits .f32 = 32 ∨ (Rect.block (s := S32768x32) S16384x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S16384x128.size a ≤ S32768x128.size a
  hwx6_1 : ∀ i : grid6.Coords, EltTy.bits .f32 = 32 ∨ (Rect.block (s := S32768x128) S16384x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x64.size a ≤ S32x64.size a
  hwx6_2 : ∀ i : grid6.Coords, EltTy.bits .f32 = 32 ∨ (Rect.block (s := S32x64) S32x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64.size a ≤ S64.size a
  hwx6_3 : ∀ i : grid6.Coords, EltTy.bits .f32 = 32 ∨ (Rect.block (s := S64) S64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64.size a ≤ S64.size a
  hwx6_6 : ∀ i : grid6.Coords, EltTy.bits .f32 = 32 ∨ (Rect.block (s := S64) S64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S16384x64.size a ≤ S32768x64.size a
  hwx6_7 : ∀ i : grid6.Coords, EltTy.bits .f32 = 32 ∨ (Rect.block (s := S32768x64) S16384x64.size (cc6_transform_7 i) (hinb6_7 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S16384x32.size a ≤ S16384x32.size a
  hwx7_0 : ∀ i : grid7.Coords, EltTy.bits .f32 = 32 ∨ (Rect.block (s := S16384x32) S16384x32.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S16384x128.size a ≤ S16384x128.size a
  hwx7_1 : ∀ i : grid7.Coords, EltTy.bits .f32 = 32 ∨ (Rect.block (s := S16384x128) S16384x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x64.size a ≤ S32x64.size a
  hwx7_2 : ∀ i : grid7.Coords, EltTy.bits .f32 = 32 ∨ (Rect.block (s := S32x64) S32x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64.size a ≤ S64.size a
  hwx7_3 : ∀ i : grid7.Coords, EltTy.bits .f32 = 32 ∨ (Rect.block (s := S64) S64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x64.size a ≤ S128x64.size a
  hwx7_4 : ∀ i : grid7.Coords, EltTy.bits .f32 = 32 ∨ (Rect.block (s := S128x64) S128x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64.size a ≤ S64.size a
  hwx7_6 : ∀ i : grid7.Coords, EltTy.bits .f32 = 32 ∨ (Rect.block (s := S64) S64.size (cc7_transform_6 i) (hinb7_6 i)).WholeWords (EltTy.packing .f32)
  hstage7_7 : ∀ j, (stage7_7 j).IsWhole
  nbuf7_7 : grid7.bufCount reads7_7 false = 1
  hreads7_7 : ∀ i i' : grid7.Coords, (∀ a, reads7_7 a = true → i a = i' a) → cc7_transform_7 i = cc7_transform_7 i'
  hinb7_7 : ∀ (i : grid7.Coords) a, (cc7_transform_7 i a + 1) * S16384x64.size a ≤ S16384x64.size a
  hwx7_7 : ∀ i : grid7.Coords, EltTy.bits .f32 = 32 ∨ (Rect.block (s := S16384x64) S16384x64.size (cc7_transform_7 i) (hinb7_7 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S8192x32.size a ≤ S8192x32.size a
  hwx8_0 : ∀ i : grid8.Coords, EltTy.bits .f32 = 32 ∨ (Rect.block (s := S8192x32) S8192x32.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S8192x128.size a ≤ S8192x128.size a
  hwx8_1 : ∀ i : grid8.Coords, EltTy.bits .f32 = 32 ∨ (Rect.block (s := S8192x128) S8192x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S32x64.size a ≤ S32x64.size a
  hwx8_2 : ∀ i : grid8.Coords, EltTy.bits .f32 = 32 ∨ (Rect.block (s := S32x64) S32x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64.size a ≤ S64.size a
  hwx8_3 : ∀ i : grid8.Coords, EltTy.bits .f32 = 32 ∨ (Rect.block (s := S64) S64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x64.size a ≤ S128x64.size a
  hwx8_4 : ∀ i : grid8.Coords, EltTy.bits .f32 = 32 ∨ (Rect.block (s := S128x64) S128x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S64.size a ≤ S64.size a
  hwx8_6 : ∀ i : grid8.Coords, EltTy.bits .f32 = 32 ∨ (Rect.block (s := S64) S64.size (cc8_transform_6 i) (hinb8_6 i)).WholeWords (EltTy.packing .f32)
  hstage8_7 : ∀ j, (stage8_7 j).IsWhole
  nbuf8_7 : grid8.bufCount reads8_7 false = 1
  hreads8_7 : ∀ i i' : grid8.Coords, (∀ a, reads8_7 a = true → i a = i' a) → cc8_transform_7 i = cc8_transform_7 i'
  hinb8_7 : ∀ (i : grid8.Coords) a, (cc8_transform_7 i a + 1) * S8192x64.size a ≤ S8192x64.size a
  hwx8_7 : ∀ i : grid8.Coords, EltTy.bits .f32 = 32 ∨ (Rect.block (s := S8192x64) S8192x64.size (cc8_transform_7 i) (hinb8_7 i)).WholeWords (EltTy.packing .f32)

variable [Facts₀]

def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def gather_S2097152x64_S1048576x2x1_S1048576x2x64_2_0_n_n_0_2_164 : GatherDims S2097152x64 S1048576x2x1 S1048576x2x64 where
  offsetDims := [2]
  collapsedSliceDims := [0]
  operandBatchingDims := []
  startIndicesBatchingDims := []
  startIndexMap := [0]
  indexVectorDim := 2
  sliceSizes := ![1, 64]
  wf := gather_S2097152x64_S1048576x2x1_S1048576x2x64_2_0_n_n_0_2_164_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S1048576x64_S524288x2x1_S524288x2x64_2_0_n_n_0_2_164 : GatherDims S1048576x64 S524288x2x1 S524288x2x64 where
  offsetDims := [2]
  collapsedSliceDims := [0]
  operandBatchingDims := []
  startIndicesBatchingDims := []
  startIndexMap := [0]
  indexVectorDim := 2
  sliceSizes := ![1, 64]
  wf := gather_S1048576x64_S524288x2x1_S524288x2x64_2_0_n_n_0_2_164_wf
def gather_S524288x64_S262144x2x1_S262144x2x64_2_0_n_n_0_2_164 : GatherDims S524288x64 S262144x2x1 S262144x2x64 where
  offsetDims := [2]
  collapsedSliceDims := [0]
  operandBatchingDims := []
  startIndicesBatchingDims := []
  startIndexMap := [0]
  indexVectorDim := 2
  sliceSizes := ![1, 64]
  wf := gather_S524288x64_S262144x2x1_S262144x2x64_2_0_n_n_0_2_164_wf
def gather_S262144x64_S131072x2x1_S131072x2x64_2_0_n_n_0_2_164 : GatherDims S262144x64 S131072x2x1 S131072x2x64 where
  offsetDims := [2]
  collapsedSliceDims := [0]
  operandBatchingDims := []
  startIndicesBatchingDims := []
  startIndexMap := [0]
  indexVectorDim := 2
  sliceSizes := ![1, 64]
  wf := gather_S262144x64_S131072x2x1_S131072x2x64_2_0_n_n_0_2_164_wf
def gather_S131072x64_S65536x2x1_S65536x2x64_2_0_n_n_0_2_164 : GatherDims S131072x64 S65536x2x1 S65536x2x64 where
  offsetDims := [2]
  collapsedSliceDims := [0]
  operandBatchingDims := []
  startIndicesBatchingDims := []
  startIndexMap := [0]
  indexVectorDim := 2
  sliceSizes := ![1, 64]
  wf := gather_S131072x64_S65536x2x1_S65536x2x64_2_0_n_n_0_2_164_wf
def gather_S65536x64_S32768x2x1_S32768x2x64_2_0_n_n_0_2_164 : GatherDims S65536x64 S32768x2x1 S32768x2x64 where
  offsetDims := [2]
  collapsedSliceDims := [0]
  operandBatchingDims := []
  startIndicesBatchingDims := []
  startIndexMap := [0]
  indexVectorDim := 2
  sliceSizes := ![1, 64]
  wf := gather_S65536x64_S32768x2x1_S32768x2x64_2_0_n_n_0_2_164_wf
def gather_S32768x64_S16384x2x1_S16384x2x64_2_0_n_n_0_2_164 : GatherDims S32768x64 S16384x2x1 S16384x2x64 where
  offsetDims := [2]
  collapsedSliceDims := [0]
  operandBatchingDims := []
  startIndicesBatchingDims := []
  startIndexMap := [0]
  indexVectorDim := 2
  sliceSizes := ![1, 64]
  wf := gather_S32768x64_S16384x2x1_S16384x2x64_2_0_n_n_0_2_164_wf
def gather_S16384x64_S8192x2x1_S8192x2x64_2_0_n_n_0_2_164 : GatherDims S16384x64 S8192x2x1 S8192x2x64 where
  offsetDims := [2]
  collapsedSliceDims := [0]
  operandBatchingDims := []
  startIndicesBatchingDims := []
  startIndexMap := [0]
  indexVectorDim := 2
  sliceSizes := ![1, 64]
  wf := gather_S16384x64_S8192x2x1_S8192x2x64_2_0_n_n_0_2_164_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg8) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg17) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg18) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16384x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg7) S16384x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16384x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg17) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg18) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg20) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S16384x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg6) S16384x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S16384x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S16384x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg5) S16384x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S16384x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v1) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg20) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v11) S16384x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_arg4) S16384x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S16384x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg17) S32x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v0) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v1) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg20) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v14) S16384x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_arg3) S16384x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v16) S16384x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S32x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg18) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v0) S128x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v1) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg20) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v17) S16384x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_arg2) S16384x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v19) S16384x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg17) S32x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg18) S64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v0) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v1) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg20) S64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v20) S16384x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_arg1) S16384x32.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v22) S16384x128.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_arg17) S32x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg18) S64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v0) S128x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v1) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg20) S64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v23) S16384x64.size cc7_transform_7 reads7_7 true false 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_arg0) S8192x32.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v25) S8192x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_arg17) S32x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg18) S64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v0) S128x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v1) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg20) S64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v26) S8192x64.size cc8_transform_7 reads8_7 true false 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S8192x32 : Shape := ⟨2, ![8192, 32]⟩
abbrev S16384x32 : Shape := ⟨2, ![16384, 32]⟩
abbrev S32768x32 : Shape := ⟨2, ![32768, 32]⟩
abbrev S65536x32 : Shape := ⟨2, ![65536, 32]⟩
abbrev S131072x32 : Shape := ⟨2, ![131072, 32]⟩
abbrev S262144x32 : Shape := ⟨2, ![262144, 32]⟩
abbrev S524288x32 : Shape := ⟨2, ![524288, 32]⟩
abbrev S1048576x32 : Shape := ⟨2, ![1048576, 32]⟩
abbrev S2097152x32 : Shape := ⟨2, ![2097152, 32]⟩
abbrev S8192x2 : Shape := ⟨2, ![8192, 2]⟩
abbrev S16384x2 : Shape := ⟨2, ![16384, 2]⟩
abbrev S32768x2 : Shape := ⟨2, ![32768, 2]⟩
abbrev S65536x2 : Shape := ⟨2, ![65536, 2]⟩
abbrev S131072x2 : Shape := ⟨2, ![131072, 2]⟩
abbrev S262144x2 : Shape := ⟨2, ![262144, 2]⟩
abbrev S524288x2 : Shape := ⟨2, ![524288, 2]⟩
abbrev S1048576x2 : Shape := ⟨2, ![1048576, 2]⟩
abbrev S32x64 : Shape := ⟨2, ![32, 64]⟩
abbrev S64 : Shape := ⟨1, ![64]⟩
abbrev S192x64 : Shape := ⟨2, ![192, 64]⟩
abbrev S2097152x64 : Shape := ⟨2, ![2097152, 64]⟩
abbrev S1x64 : Shape := ⟨2, ![1, 64]⟩
abbrev S_ : Shape := ⟨0, ![]⟩
abbrev S1048576x64 : Shape := ⟨2, ![1048576, 64]⟩
abbrev S1048576x1 : Shape := ⟨2, ![1048576, 1]⟩
abbrev S1048576 : Shape := ⟨1, ![1048576]⟩
abbrev S1048576x192 : Shape := ⟨2, ![1048576, 192]⟩
abbrev S524288x64 : Shape := ⟨2, ![524288, 64]⟩
abbrev S524288x1 : Shape := ⟨2, ![524288, 1]⟩
abbrev S524288 : Shape := ⟨1, ![524288]⟩
abbrev S524288x192 : Shape := ⟨2, ![524288, 192]⟩
abbrev S262144x64 : Shape := ⟨2, ![262144, 64]⟩
abbrev S262144x1 : Shape := ⟨2, ![262144, 1]⟩
abbrev S262144 : Shape := ⟨1, ![262144]⟩
abbrev S262144x192 : Shape := ⟨2, ![262144, 192]⟩
abbrev S131072x64 : Shape := ⟨2, ![131072, 64]⟩
abbrev S131072x1 : Shape := ⟨2, ![131072, 1]⟩
abbrev S131072 : Shape := ⟨1, ![131072]⟩
abbrev S131072x192 : Shape := ⟨2, ![131072, 192]⟩
abbrev S65536x64 : Shape := ⟨2, ![65536, 64]⟩
abbrev S65536x1 : Shape := ⟨2, ![65536, 1]⟩
abbrev S65536 : Shape := ⟨1, ![65536]⟩
abbrev S65536x192 : Shape := ⟨2, ![65536, 192]⟩
abbrev S32768x64 : Shape := ⟨2, ![32768, 64]⟩
abbrev S32768x1 : Shape := ⟨2, ![32768, 1]⟩
abbrev S32768 : Shape := ⟨1, ![32768]⟩
abbrev S32768x192 : Shape := ⟨2, ![32768, 192]⟩
abbrev S16384x64 : Shape := ⟨2, ![16384, 64]⟩
abbrev S16384x1 : Shape := ⟨2, ![16384, 1]⟩
abbrev S16384 : Shape := ⟨1, ![16384]⟩
abbrev S16384x192 : Shape := ⟨2, ![16384, 192]⟩
abbrev S8192x64 : Shape := ⟨2, ![8192, 64]⟩
abbrev S8192x1 : Shape := ⟨2, ![8192, 1]⟩
abbrev S8192 : Shape := ⟨1, ![8192]⟩
abbrev S8192x192 : Shape := ⟨2, ![8192, 192]⟩

abbrev nBuf : Space → Nat
  | .hbm => 324
  | .vmem => 0
  | .smem => 0
  | _ => 0

abbrev hbmTy0_0 (i : Nat) : BufTy := match i % 128 with
  | 0 => ⟨S8192x32, .f32⟩
  | 1 => ⟨S16384x32, .f32⟩
  | 2 => ⟨S32768x32, .f32⟩
  | 3 => ⟨S65536x32, .f32⟩
  | 4 => ⟨S131072x32, .f32⟩
  | 5 => ⟨S262144x32, .f32⟩
  | 6 => ⟨S524288x32, .f32⟩
  | 7 => ⟨S1048576x32, .f32⟩
  | 8 => ⟨S2097152x32, .f32⟩
  | 9 => ⟨S8192x2, .i32⟩
  | 10 => ⟨S16384x2, .i32⟩
  | 11 => ⟨S32768x2, .i32⟩
  | 12 => ⟨S65536x2, .i32⟩
  | 13 => ⟨S131072x2, .i32⟩
  | 14 => ⟨S262144x2, .i32⟩
  | 15 => ⟨S524288x2, .i32⟩
  | 16 => ⟨S1048576x2, .i32⟩
  | 17 => ⟨S32x64, .f32⟩
  | 18 => ⟨S64, .f32⟩
  | 19 => ⟨S192x64, .f32⟩
  | 20 => ⟨S64, .f32⟩
  | 21 => ⟨S2097152x64, .f32⟩
  | 22 => ⟨S1x64, .f32⟩
  | 23 => ⟨S2097152x64, .f32⟩
  | 24 => ⟨S2097152x64, .f32⟩
  | 25 => ⟨S_, .f32⟩
  | 26 => ⟨S2097152x64, .f32⟩
  | 27 => ⟨S2097152x64, .f32⟩
  | 28 => ⟨S1048576x64, .f32⟩
  | 29 => ⟨S1x64, .f32⟩
  | 30 => ⟨S1048576x64, .f32⟩
  | 31 => ⟨S1048576x64, .f32⟩
  | 32 => ⟨S_, .f32⟩
  | 33 => ⟨S1048576x64, .f32⟩
  | 34 => ⟨S1048576x64, .f32⟩
  | 35 => ⟨S1048576x1, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S1048576x64, .f32⟩
  | 46 => ⟨S1048576x1, .i32⟩
  | 47 => ⟨S1048576, .i32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S1048576x1, .i32⟩
  | 56 => ⟨S1048576x64, .f32⟩
  | 57 => ⟨S1048576x192, .f32⟩
  | 58 => ⟨S1048576x64, .f32⟩
  | 59 => ⟨S1x64, .f32⟩
  | 60 => ⟨S1048576x64, .f32⟩
  | 61 => ⟨S1048576x64, .f32⟩
  | 62 => ⟨S_, .f32⟩
  | 63 => ⟨S1048576x64, .f32⟩
  | 64 => ⟨S1048576x64, .f32⟩
  | 65 => ⟨S524288x64, .f32⟩
  | 66 => ⟨S1x64, .f32⟩
  | 67 => ⟨S524288x64, .f32⟩
  | 68 => ⟨S524288x64, .f32⟩
  | 69 => ⟨S_, .f32⟩
  | 70 => ⟨S524288x64, .f32⟩
  | 71 => ⟨S524288x64, .f32⟩
  | 72 => ⟨S524288x1, .i32⟩
  | 73 => ⟨S524288, .i32⟩
  | 74 => ⟨S_, .i32⟩
  | 75 => ⟨S524288, .i32⟩
  | 76 => ⟨S524288, .i1⟩
  | 77 => ⟨S_, .i32⟩
  | 78 => ⟨S524288, .i32⟩
  | 79 => ⟨S524288, .i32⟩
  | 80 => ⟨S524288, .i32⟩
  | 81 => ⟨S524288x1, .i32⟩
  | 82 => ⟨S524288x64, .f32⟩
  | 83 => ⟨S524288x1, .i32⟩
  | 84 => ⟨S524288, .i32⟩
  | 85 => ⟨S_, .i32⟩
  | 86 => ⟨S524288, .i32⟩
  | 87 => ⟨S524288, .i1⟩
  | 88 => ⟨S_, .i32⟩
  | 89 => ⟨S524288, .i32⟩
  | 90 => ⟨S524288, .i32⟩
  | 91 => ⟨S524288, .i32⟩
  | 92 => ⟨S524288x1, .i32⟩
  | 93 => ⟨S524288x64, .f32⟩
  | 94 => ⟨S524288x192, .f32⟩
  | 95 => ⟨S524288x64, .f32⟩
  | 96 => ⟨S1x64, .f32⟩
  | 97 => ⟨S524288x64, .f32⟩
  | 98 => ⟨S524288x64, .f32⟩
  | 99 => ⟨S_, .f32⟩
  | 100 => ⟨S524288x64, .f32⟩
  | 101 => ⟨S524288x64, .f32⟩
  | 102 => ⟨S262144x64, .f32⟩
  | 103 => ⟨S1x64, .f32⟩
  | 104 => ⟨S262144x64, .f32⟩
  | 105 => ⟨S262144x64, .f32⟩
  | 106 => ⟨S_, .f32⟩
  | 107 => ⟨S262144x64, .f32⟩
  | 108 => ⟨S262144x64, .f32⟩
  | 109 => ⟨S262144x1, .i32⟩
  | 110 => ⟨S262144, .i32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144x64, .f32⟩
  | 120 => ⟨S262144x1, .i32⟩
  | 121 => ⟨S262144, .i32⟩
  | 122 => ⟨S_, .i32⟩
  | 123 => ⟨S262144, .i32⟩
  | 124 => ⟨S262144, .i1⟩
  | 125 => ⟨S_, .i32⟩
  | 126 => ⟨S262144, .i32⟩
  | 127 => ⟨S262144, .i32⟩
  | _ => ⟨S8192x32, .f32⟩

abbrev hbmTy0_1 (i : Nat) : BufTy := match i % 128 with
  | 0 => ⟨S262144, .i32⟩
  | 1 => ⟨S262144x1, .i32⟩
  | 2 => ⟨S262144x64, .f32⟩
  | 3 => ⟨S262144x192, .f32⟩
  | 4 => ⟨S262144x64, .f32⟩
  | 5 => ⟨S1x64, .f32⟩
  | 6 => ⟨S262144x64, .f32⟩
  | 7 => ⟨S262144x64, .f32⟩
  | 8 => ⟨S_, .f32⟩
  | 9 => ⟨S262144x64, .f32⟩
  | 10 => ⟨S262144x64, .f32⟩
  | 11 => ⟨S131072x64, .f32⟩
  | 12 => ⟨S1x64, .f32⟩
  | 13 => ⟨S131072x64, .f32⟩
  | 14 => ⟨S131072x64, .f32⟩
  | 15 => ⟨S_, .f32⟩
  | 16 => ⟨S131072x64, .f32⟩
  | 17 => ⟨S131072x64, .f32⟩
  | 18 => ⟨S131072x1, .i32⟩
  | 19 => ⟨S131072, .i32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x64, .f32⟩
  | 29 => ⟨S131072x1, .i32⟩
  | 30 => ⟨S131072, .i32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x64, .f32⟩
  | 40 => ⟨S131072x192, .f32⟩
  | 41 => ⟨S131072x64, .f32⟩
  | 42 => ⟨S1x64, .f32⟩
  | 43 => ⟨S131072x64, .f32⟩
  | 44 => ⟨S131072x64, .f32⟩
  | 45 => ⟨S_, .f32⟩
  | 46 => ⟨S131072x64, .f32⟩
  | 47 => ⟨S131072x64, .f32⟩
  | 48 => ⟨S65536x64, .f32⟩
  | 49 => ⟨S1x64, .f32⟩
  | 50 => ⟨S65536x64, .f32⟩
  | 51 => ⟨S65536x64, .f32⟩
  | 52 => ⟨S_, .f32⟩
  | 53 => ⟨S65536x64, .f32⟩
  | 54 => ⟨S65536x64, .f32⟩
  | 55 => ⟨S65536x1, .i32⟩
  | 56 => ⟨S65536, .i32⟩
  | 57 => ⟨S_, .i32⟩
  | 58 => ⟨S65536, .i32⟩
  | 59 => ⟨S65536, .i1⟩
  | 60 => ⟨S_, .i32⟩
  | 61 => ⟨S65536, .i32⟩
  | 62 => ⟨S65536, .i32⟩
  | 63 => ⟨S65536, .i32⟩
  | 64 => ⟨S65536x1, .i32⟩
  | 65 => ⟨S65536x64, .f32⟩
  | 66 => ⟨S65536x1, .i32⟩
  | 67 => ⟨S65536, .i32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536x64, .f32⟩
  | 77 => ⟨S65536x192, .f32⟩
  | 78 => ⟨S65536x64, .f32⟩
  | 79 => ⟨S1x64, .f32⟩
  | 80 => ⟨S65536x64, .f32⟩
  | 81 => ⟨S65536x64, .f32⟩
  | 82 => ⟨S_, .f32⟩
  | 83 => ⟨S65536x64, .f32⟩
  | 84 => ⟨S65536x64, .f32⟩
  | 85 => ⟨S32768x64, .f32⟩
  | 86 => ⟨S1x64, .f32⟩
  | 87 => ⟨S32768x64, .f32⟩
  | 88 => ⟨S32768x64, .f32⟩
  | 89 => ⟨S_, .f32⟩
  | 90 => ⟨S32768x64, .f32⟩
  | 91 => ⟨S32768x64, .f32⟩
  | 92 => ⟨S32768x1, .i32⟩
  | 93 => ⟨S32768, .i32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S32768x64, .f32⟩
  | 103 => ⟨S32768x1, .i32⟩
  | 104 => ⟨S32768, .i32⟩
  | 105 => ⟨S_, .i32⟩
  | 106 => ⟨S32768, .i32⟩
  | 107 => ⟨S32768, .i1⟩
  | 108 => ⟨S_, .i32⟩
  | 109 => ⟨S32768, .i32⟩
  | 110 => ⟨S32768, .i32⟩
  | 111 => ⟨S32768, .i32⟩
  | 112 => ⟨S32768x1, .i32⟩
  | 113 => ⟨S32768x64, .f32⟩
  | 114 => ⟨S32768x192, .f32⟩
  | 115 => ⟨S32768x64, .f32⟩
  | 116 => ⟨S1x64, .f32⟩
  | 117 => ⟨S32768x64, .f32⟩
  | 118 => ⟨S32768x64, .f32⟩
  | 119 => ⟨S_, .f32⟩
  | 120 => ⟨S32768x64, .f32⟩
  | 121 => ⟨S32768x64, .f32⟩
  | 122 => ⟨S16384x64, .f32⟩
  | 123 => ⟨S1x64, .f32⟩
  | 124 => ⟨S16384x64, .f32⟩
  | 125 => ⟨S16384x64, .f32⟩
  | 126 => ⟨S_, .f32⟩
  | 127 => ⟨S16384x64, .f32⟩
  | _ => ⟨S8192x32, .f32⟩

abbrev hbmTy0_2 (i : Nat) : BufTy := match i % 128 with
  | 0 => ⟨S16384x64, .f32⟩
  | 1 => ⟨S16384x1, .i32⟩
  | 2 => ⟨S16384, .i32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x64, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384x64, .f32⟩
  | 23 => ⟨S16384x192, .f32⟩
  | 24 => ⟨S16384x64, .f32⟩
  | 25 => ⟨S1x64, .f32⟩
  | 26 => ⟨S16384x64, .f32⟩
  | 27 => ⟨S16384x64, .f32⟩
  | 28 => ⟨S_, .f32⟩
  | 29 => ⟨S16384x64, .f32⟩
  | 30 => ⟨S16384x64, .f32⟩
  | 31 => ⟨S8192x64, .f32⟩
  | 32 => ⟨S1x64, .f32⟩
  | 33 => ⟨S8192x64, .f32⟩
  | 34 => ⟨S8192x64, .f32⟩
  | 35 => ⟨S_, .f32⟩
  | 36 => ⟨S8192x64, .f32⟩
  | 37 => ⟨S8192x64, .f32⟩
  | 38 => ⟨S8192x1, .i32⟩
  | 39 => ⟨S8192, .i32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192x64, .f32⟩
  | 49 => ⟨S8192x1, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S8192x64, .f32⟩
  | 60 => ⟨S8192x192, .f32⟩
  | 61 => ⟨S8192x64, .f32⟩
  | 62 => ⟨S1x64, .f32⟩
  | 63 => ⟨S8192x64, .f32⟩
  | 64 => ⟨S8192x64, .f32⟩
  | 65 => ⟨S_, .f32⟩
  | 66 => ⟨S8192x64, .f32⟩
  | 67 => ⟨S8192x64, .f32⟩
  | _ => ⟨S8192x32, .f32⟩

abbrev hbmTy (i : Nat) : BufTy := match i / 128 with
  | 0 => hbmTy0_0 i
  | 1 => hbmTy0_1 i
  | 2 => hbmTy0_2 i
  | _ => ⟨S8192x32, .f32⟩

abbrev bufTy : (tb : Table) → Fin (tcTables nBuf tb) → BufTy
  | .hbm, ⟨i, _⟩ => hbmTy i
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_cst : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_1 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call2_cst : Ref sig .tc := ⟨.hbm, 62, rfl⟩
abbrev main_call2_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call3_cst : Ref sig .tc := ⟨.hbm, 69, rfl⟩
abbrev main_call3_v0 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_3 : Ref sig .tc := ⟨.hbm, 74, rfl⟩
abbrev main_v41 : Ref sig .tc := ⟨.hbm, 75, rfl⟩
abbrev main_v42 : Ref sig .tc := ⟨.hbm, 76, rfl⟩
abbrev main_c_4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_5 : Ref sig .tc := ⟨.hbm, 85, rfl⟩
abbrev main_v50 : Ref sig .tc := ⟨.hbm, 86, rfl⟩
abbrev main_v51 : Ref sig .tc := ⟨.hbm, 87, rfl⟩
abbrev main_c_6 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call4_cst : Ref sig .tc := ⟨.hbm, 99, rfl⟩
abbrev main_call4_v0 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_7 : Ref sig .tc := ⟨.hbm, 111, rfl⟩
abbrev main_v70 : Ref sig .tc := ⟨.hbm, 112, rfl⟩
abbrev main_v71 : Ref sig .tc := ⟨.hbm, 113, rfl⟩
abbrev main_c_8 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_9 : Ref sig .tc := ⟨.hbm, 122, rfl⟩
abbrev main_v79 : Ref sig .tc := ⟨.hbm, 123, rfl⟩
abbrev main_v80 : Ref sig .tc := ⟨.hbm, 124, rfl⟩
abbrev main_c_10 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_call6_cst : Ref sig .tc := ⟨.hbm, 136, rfl⟩
abbrev main_call6_v0 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_call7_cst : Ref sig .tc := ⟨.hbm, 143, rfl⟩
abbrev main_call7_v0 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_c_11 : Ref sig .tc := ⟨.hbm, 148, rfl⟩
abbrev main_v99 : Ref sig .tc := ⟨.hbm, 149, rfl⟩
abbrev main_v100 : Ref sig .tc := ⟨.hbm, 150, rfl⟩
abbrev main_c_12 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_13 : Ref sig .tc := ⟨.hbm, 159, rfl⟩
abbrev main_v108 : Ref sig .tc := ⟨.hbm, 160, rfl⟩
abbrev main_v109 : Ref sig .tc := ⟨.hbm, 161, rfl⟩
abbrev main_c_14 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_call8_cst : Ref sig .tc := ⟨.hbm, 173, rfl⟩
abbrev main_call8_v0 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_call9_cst : Ref sig .tc := ⟨.hbm, 180, rfl⟩
abbrev main_call9_v0 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_c_15 : Ref sig .tc := ⟨.hbm, 185, rfl⟩
abbrev main_v128 : Ref sig .tc := ⟨.hbm, 186, rfl⟩
abbrev main_v129 : Ref sig .tc := ⟨.hbm, 187, rfl⟩
abbrev main_c_16 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_c_17 : Ref sig .tc := ⟨.hbm, 196, rfl⟩
abbrev main_v137 : Ref sig .tc := ⟨.hbm, 197, rfl⟩
abbrev main_v138 : Ref sig .tc := ⟨.hbm, 198, rfl⟩
abbrev main_c_18 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_call10_cst : Ref sig .tc := ⟨.hbm, 210, rfl⟩
abbrev main_call10_v0 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_call11_cst : Ref sig .tc := ⟨.hbm, 217, rfl⟩
abbrev main_call11_v0 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_c_19 : Ref sig .tc := ⟨.hbm, 222, rfl⟩
abbrev main_v157 : Ref sig .tc := ⟨.hbm, 223, rfl⟩
abbrev main_v158 : Ref sig .tc := ⟨.hbm, 224, rfl⟩
abbrev main_c_20 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_c_21 : Ref sig .tc := ⟨.hbm, 233, rfl⟩
abbrev main_v166 : Ref sig .tc := ⟨.hbm, 234, rfl⟩
abbrev main_v167 : Ref sig .tc := ⟨.hbm, 235, rfl⟩
abbrev main_c_22 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_call12_cst : Ref sig .tc := ⟨.hbm, 247, rfl⟩
abbrev main_call12_v0 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_call13_cst : Ref sig .tc := ⟨.hbm, 254, rfl⟩
abbrev main_call13_v0 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_c_23 : Ref sig .tc := ⟨.hbm, 259, rfl⟩
abbrev main_v186 : Ref sig .tc := ⟨.hbm, 260, rfl⟩
abbrev main_v187 : Ref sig .tc := ⟨.hbm, 261, rfl⟩
abbrev main_c_24 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_c_25 : Ref sig .tc := ⟨.hbm, 270, rfl⟩
abbrev main_v195 : Ref sig .tc := ⟨.hbm, 271, rfl⟩
abbrev main_v196 : Ref sig .tc := ⟨.hbm, 272, rfl⟩
abbrev main_c_26 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_call14_cst : Ref sig .tc := ⟨.hbm, 284, rfl⟩
abbrev main_call14_v0 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_call15_cst : Ref sig .tc := ⟨.hbm, 291, rfl⟩
abbrev main_call15_v0 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_c_27 : Ref sig .tc := ⟨.hbm, 296, rfl⟩
abbrev main_v215 : Ref sig .tc := ⟨.hbm, 297, rfl⟩
abbrev main_v216 : Ref sig .tc := ⟨.hbm, 298, rfl⟩
abbrev main_c_28 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_c_29 : Ref sig .tc := ⟨.hbm, 307, rfl⟩
abbrev main_v224 : Ref sig .tc := ⟨.hbm, 308, rfl⟩
abbrev main_v225 : Ref sig .tc := ⟨.hbm, 309, rfl⟩
abbrev main_c_30 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_call16_cst : Ref sig .tc := ⟨.hbm, 321, rfl⟩
abbrev main_call16_v0 : Ref sig .tc := ⟨.hbm, 322, rfl⟩
abbrev main_v236 : Ref sig .tc := ⟨.hbm, 323, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S1048576x2_S1048576x1_0_1 : S1048576x2.Slices ![0, 1] S1048576x1
  concatenates_S1048576x64_S1048576x64_S1048576x64_S1048576x192_d1 : Shape.Concatenates [S1048576x64, S1048576x64, S1048576x64] S1048576x192 1
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  slices_S524288x2_S524288x1_0_0 : S524288x2.Slices ![0, 0] S524288x1
  shapeCasts_S524288x1_S524288 : S524288x1.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_1 : S524288x2.Slices ![0, 1] S524288x1
  concatenates_S524288x64_S524288x64_S524288x64_S524288x192_d1 : Shape.Concatenates [S524288x64, S524288x64, S524288x64] S524288x192 1
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  slices_S262144x2_S262144x1_0_1 : S262144x2.Slices ![0, 1] S262144x1
  concatenates_S262144x64_S262144x64_S262144x64_S262144x192_d1 : Shape.Concatenates [S262144x64, S262144x64, S262144x64] S262144x192 1
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  slices_S131072x2_S131072x1_0_0 : S131072x2.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x2_S131072x1_0_1 : S131072x2.Slices ![0, 1] S131072x1
  concatenates_S131072x64_S131072x64_S131072x64_S131072x192_d1 : Shape.Concatenates [S131072x64, S131072x64, S131072x64] S131072x192 1
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x2_S65536x1_0_1 : S65536x2.Slices ![0, 1] S65536x1
  concatenates_S65536x64_S65536x64_S65536x64_S65536x192_d1 : Shape.Concatenates [S65536x64, S65536x64, S65536x64] S65536x192 1
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S32768x2_S32768x1_0_1 : S32768x2.Slices ![0, 1] S32768x1
  concatenates_S32768x64_S32768x64_S32768x64_S32768x192_d1 : Shape.Concatenates [S32768x64, S32768x64, S32768x64] S32768x192 1
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  concatenates_S16384x64_S16384x64_S16384x64_S16384x192_d1 : Shape.Concatenates [S16384x64, S16384x64, S16384x64] S16384x192 1
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  concatenates_S8192x64_S8192x64_S8192x64_S8192x192_d1 : Shape.Concatenates [S8192x64, S8192x64, S8192x64] S8192x192 1
  dot_S2097152x32_S32x64_S2097152x64_1_0_0_1_n_n_wf : DotDims.WF S2097152x32 S32x64 S2097152x64 [1] [0] [0] [1] [] []
  dot_S1048576x32_S32x64_S1048576x64_1_0_0_1_n_n_wf : DotDims.WF S1048576x32 S32x64 S1048576x64 [1] [0] [0] [1] [] []
  gather_S2097152x64_S1048576x1_S1048576x64_1_0_n_n_0_1_164_wf : GatherDims.WF S2097152x64 S1048576x1 S1048576x64 [1] [0] [] [0] [] 1 ![1, 64]
  dot_S1048576x192_S192x64_S1048576x64_1_0_0_1_n_n_wf : DotDims.WF S1048576x192 S192x64 S1048576x64 [1] [0] [0] [1] [] []
  dot_S524288x32_S32x64_S524288x64_1_0_0_1_n_n_wf : DotDims.WF S524288x32 S32x64 S524288x64 [1] [0] [0] [1] [] []
  gather_S1048576x64_S524288x1_S524288x64_1_0_n_n_0_1_164_wf : GatherDims.WF S1048576x64 S524288x1 S524288x64 [1] [0] [] [0] [] 1 ![1, 64]
  dot_S524288x192_S192x64_S524288x64_1_0_0_1_n_n_wf : DotDims.WF S524288x192 S192x64 S524288x64 [1] [0] [0] [1] [] []
  dot_S262144x32_S32x64_S262144x64_1_0_0_1_n_n_wf : DotDims.WF S262144x32 S32x64 S262144x64 [1] [0] [0] [1] [] []
  gather_S524288x64_S262144x1_S262144x64_1_0_n_n_0_1_164_wf : GatherDims.WF S524288x64 S262144x1 S262144x64 [1] [0] [] [0] [] 1 ![1, 64]
  dot_S262144x192_S192x64_S262144x64_1_0_0_1_n_n_wf : DotDims.WF S262144x192 S192x64 S262144x64 [1] [0] [0] [1] [] []
  dot_S131072x32_S32x64_S131072x64_1_0_0_1_n_n_wf : DotDims.WF S131072x32 S32x64 S131072x64 [1] [0] [0] [1] [] []
  gather_S262144x64_S131072x1_S131072x64_1_0_n_n_0_1_164_wf : GatherDims.WF S262144x64 S131072x1 S131072x64 [1] [0] [] [0] [] 1 ![1, 64]
  dot_S131072x192_S192x64_S131072x64_1_0_0_1_n_n_wf : DotDims.WF S131072x192 S192x64 S131072x64 [1] [0] [0] [1] [] []
  dot_S65536x32_S32x64_S65536x64_1_0_0_1_n_n_wf : DotDims.WF S65536x32 S32x64 S65536x64 [1] [0] [0] [1] [] []
  gather_S131072x64_S65536x1_S65536x64_1_0_n_n_0_1_164_wf : GatherDims.WF S131072x64 S65536x1 S65536x64 [1] [0] [] [0] [] 1 ![1, 64]
  dot_S65536x192_S192x64_S65536x64_1_0_0_1_n_n_wf : DotDims.WF S65536x192 S192x64 S65536x64 [1] [0] [0] [1] [] []
  dot_S32768x32_S32x64_S32768x64_1_0_0_1_n_n_wf : DotDims.WF S32768x32 S32x64 S32768x64 [1] [0] [0] [1] [] []
  gather_S65536x64_S32768x1_S32768x64_1_0_n_n_0_1_164_wf : GatherDims.WF S65536x64 S32768x1 S32768x64 [1] [0] [] [0] [] 1 ![1, 64]
  dot_S32768x192_S192x64_S32768x64_1_0_0_1_n_n_wf : DotDims.WF S32768x192 S192x64 S32768x64 [1] [0] [0] [1] [] []
  dot_S16384x32_S32x64_S16384x64_1_0_0_1_n_n_wf : DotDims.WF S16384x32 S32x64 S16384x64 [1] [0] [0] [1] [] []
  gather_S32768x64_S16384x1_S16384x64_1_0_n_n_0_1_164_wf : GatherDims.WF S32768x64 S16384x1 S16384x64 [1] [0] [] [0] [] 1 ![1, 64]
  dot_S16384x192_S192x64_S16384x64_1_0_0_1_n_n_wf : DotDims.WF S16384x192 S192x64 S16384x64 [1] [0] [0] [1] [] []
  dot_S8192x32_S32x64_S8192x64_1_0_0_1_n_n_wf : DotDims.WF S8192x32 S32x64 S8192x64 [1] [0] [0] [1] [] []
  gather_S16384x64_S8192x1_S8192x64_1_0_n_n_0_1_164_wf : GatherDims.WF S16384x64 S8192x1 S8192x64 [1] [0] [] [0] [] 1 ![1, 64]
  dot_S8192x192_S192x64_S8192x64_1_0_0_1_n_n_wf : DotDims.WF S8192x192 S192x64 S8192x64 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def gather_S2097152x64_S1048576x1_S1048576x64_1_0_n_n_0_1_164 : GatherDims S2097152x64 S1048576x1 S1048576x64 where
  offsetDims := [1]
  collapsedSliceDims := [0]
  operandBatchingDims := []
  startIndicesBatchingDims := []
  startIndexMap := [0]
  indexVectorDim := 1
  sliceSizes := ![1, 64]
  wf := gather_S2097152x64_S1048576x1_S1048576x64_1_0_n_n_0_1_164_wf
def dot_S1048576x192_S192x64_S1048576x64_1_0_0_1_n_n : DotDims S1048576x192 S192x64 S1048576x64 where
  lhsContracting := [1]
  rhsContracting := [0]
  lhsNonContracting := [0]
  rhsNonContracting := [1]
  lhsBatch := []
  rhsBatch := []
  wf := dot_S1048576x192_S192x64_S1048576x64_1_0_0_1_n_n_wf
def dot_S524288x32_S32x64_S524288x64_1_0_0_1_n_n : DotDims S524288x32 S32x64 S524288x64 where
  lhsContracting := [1]
  rhsContracting := [0]
  lhsNonContracting := [0]
  rhsNonContracting := [1]
  lhsBatch := []
  rhsBatch := []
  wf := dot_S524288x32_S32x64_S524288x64_1_0_0_1_n_n_wf
def gather_S1048576x64_S524288x1_S524288x64_1_0_n_n_0_1_164 : GatherDims S1048576x64 S524288x1 S524288x64 where
  offsetDims := [1]
  collapsedSliceDims := [0]
  operandBatchingDims := []
  startIndicesBatchingDims := []
  startIndexMap := [0]
  indexVectorDim := 1
  sliceSizes := ![1, 64]
  wf := gather_S1048576x64_S524288x1_S524288x64_1_0_n_n_0_1_164_wf
def dot_S524288x192_S192x64_S524288x64_1_0_0_1_n_n : DotDims S524288x192 S192x64 S524288x64 where
  lhsContracting := [1]
  rhsContracting := [0]
  lhsNonContracting := [0]
  rhsNonContracting := [1]
  lhsBatch := []
  rhsBatch := []
  wf := dot_S524288x192_S192x64_S524288x64_1_0_0_1_n_n_wf
def dot_S262144x32_S32x64_S262144x64_1_0_0_1_n_n : DotDims S262144x32 S32x64 S262144x64 where
  lhsContracting := [1]
  rhsContracting := [0]
  lhsNonContracting := [0]
  rhsNonContracting := [1]
  lhsBatch := []
  rhsBatch := []
  wf := dot_S262144x32_S32x64_S262144x64_1_0_0_1_n_n_wf
def gather_S524288x64_S262144x1_S262144x64_1_0_n_n_0_1_164 : GatherDims S524288x64 S262144x1 S262144x64 where
  offsetDims := [1]
  collapsedSliceDims := [0]
  operandBatchingDims := []
  startIndicesBatchingDims := []
  startIndexMap := [0]
  indexVectorDim := 1
  sliceSizes := ![1, 64]
  wf := gather_S524288x64_S262144x1_S262144x64_1_0_n_n_0_1_164_wf
def dot_S262144x192_S192x64_S262144x64_1_0_0_1_n_n : DotDims S262144x192 S192x64 S262144x64 where
  lhsContracting := [1]
  rhsContracting := [0]
  lhsNonContracting := [0]
  rhsNonContracting := [1]
  lhsBatch := []
  rhsBatch := []
  wf := dot_S262144x192_S192x64_S262144x64_1_0_0_1_n_n_wf
def dot_S131072x32_S32x64_S131072x64_1_0_0_1_n_n : DotDims S131072x32 S32x64 S131072x64 where
  lhsContracting := [1]
  rhsContracting := [0]
  lhsNonContracting := [0]
  rhsNonContracting := [1]
  lhsBatch := []
  rhsBatch := []
  wf := dot_S131072x32_S32x64_S131072x64_1_0_0_1_n_n_wf
def gather_S262144x64_S131072x1_S131072x64_1_0_n_n_0_1_164 : GatherDims S262144x64 S131072x1 S131072x64 where
  offsetDims := [1]
  collapsedSliceDims := [0]
  operandBatchingDims := []
  startIndicesBatchingDims := []
  startIndexMap := [0]
  indexVectorDim := 1
  sliceSizes := ![1, 64]
  wf := gather_S262144x64_S131072x1_S131072x64_1_0_n_n_0_1_164_wf
def dot_S131072x192_S192x64_S131072x64_1_0_0_1_n_n : DotDims S131072x192 S192x64 S131072x64 where
  lhsContracting := [1]
  rhsContracting := [0]
  lhsNonContracting := [0]
  rhsNonContracting := [1]
  lhsBatch := []
  rhsBatch := []
  wf := dot_S131072x192_S192x64_S131072x64_1_0_0_1_n_n_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf
def gather_S131072x64_S65536x1_S65536x64_1_0_n_n_0_1_164 : GatherDims S131072x64 S65536x1 S65536x64 where
  offsetDims := [1]
  collapsedSliceDims := [0]
  operandBatchingDims := []
  startIndicesBatchingDims := []
  startIndexMap := [0]
  indexVectorDim := 1
  sliceSizes := ![1, 64]
  wf := gather_S131072x64_S65536x1_S65536x64_1_0_n_n_0_1_164_wf
def dot_S65536x192_S192x64_S65536x64_1_0_0_1_n_n : DotDims S65536x192 S192x64 S65536x64 where
  lhsContracting := [1]
  rhsContracting := [0]
  lhsNonContracting := [0]
  rhsNonContracting := [1]
  lhsBatch := []
  rhsBatch := []
  wf := dot_S65536x192_S192x64_S65536x64_1_0_0_1_n_n_wf
def dot_S32768x32_S32x64_S32768x64_1_0_0_1_n_n : DotDims S32768x32 S32x64 S32768x64 where
  lhsContracting := [1]
  rhsContracting := [0]
  lhsNonContracting := [0]
  rhsNonContracting := [1]
  lhsBatch := []
  rhsBatch := []
  wf := dot_S32768x32_S32x64_S32768x64_1_0_0_1_n_n_wf
def gather_S65536x64_S32768x1_S32768x64_1_0_n_n_0_1_164 : GatherDims S65536x64 S32768x1 S32768x64 where
  offsetDims := [1]
  collapsedSliceDims := [0]
  operandBatchingDims := []
  startIndicesBatchingDims := []
  startIndexMap := [0]
  indexVectorDim := 1
  sliceSizes := ![1, 64]
  wf := gather_S65536x64_S32768x1_S32768x64_1_0_n_n_0_1_164_wf
def dot_S32768x192_S192x64_S32768x64_1_0_0_1_n_n : DotDims S32768x192 S192x64 S32768x64 where
  lhsContracting := [1]
  rhsContracting := [0]
  lhsNonContracting := [0]
  rhsNonContracting := [1]
  lhsBatch := []
  rhsBatch := []
  wf := dot_S32768x192_S192x64_S32768x64_1_0_0_1_n_n_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def gather_S32768x64_S16384x1_S16384x64_1_0_n_n_0_1_164 : GatherDims S32768x64 S16384x1 S16384x64 where
  offsetDims := [1]
  collapsedSliceDims := [0]
  operandBatchingDims := []
  startIndicesBatchingDims := []
  startIndexMap := [0]
  indexVectorDim := 1
  sliceSizes := ![1, 64]
  wf := gather_S32768x64_S16384x1_S16384x64_1_0_n_n_0_1_164_wf
def dot_S16384x192_S192x64_S16384x64_1_0_0_1_n_n : DotDims S16384x192 S192x64 S16384x64 where
  lhsContracting := [1]
  rhsContracting := [0]
  lhsNonContracting := [0]
  rhsNonContracting := [1]
  lhsBatch := []
  rhsBatch := []
  wf := dot_S16384x192_S192x64_S16384x64_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def gather_S16384x64_S8192x1_S8192x64_1_0_n_n_0_1_164 : GatherDims S16384x64 S8192x1 S8192x64 where
  offsetDims := [1]
  collapsedSliceDims := [0]
  operandBatchingDims := []
  startIndicesBatchingDims := []
  startIndexMap := [0]
  indexVectorDim := 1
  sliceSizes := ![1, 64]
  wf := gather_S16384x64_S8192x1_S8192x64_1_0_n_n_0_1_164_wf
def dot_S8192x192_S192x64_S8192x64_1_0_0_1_n_n : DotDims S8192x192 S192x64 S8192x64 where
  lhsContracting := [1]
  rhsContracting := [0]
  lhsNonContracting := [0]
  rhsNonContracting := [1]
  lhsBatch := []
  rhsBatch := []
  wf := dot_S8192x192_S192x64_S8192x64_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Fin

noncomputable section

namespace Cert.Tree

open Idealize.ShloMosaic Idealize.ShloMosaic.ValueIdx

/-- `relu(x · Wu + bu)` at one column. -/
def fcU (x : Fin 32 → EReal) (Wu : Fin 32 → Fin 64 → EReal) (bu : Fin 64 → EReal) (c : Fin 64) : EReal :=
  max (∑ i : Fin 32, x i * Wu i c + bu c) 0

/-- `relu(h · Wh + bh)` at one column, the product over all 192 columns. -/
def fcH (h : Fin 192 → EReal) (Wh : Fin 192 → Fin 64 → EReal) (bh : Fin 64 → EReal) (c : Fin 64) : EReal :=
  max (∑ q : Fin 192, h q * Wh q c + bh c) 0

/-- The same with the product taken in a piece of 128 columns and a piece of 64. -/
def fcSplit (hp : Fin 128 → EReal) (u : Fin 64 → EReal) (Whp : Fin 128 → Fin 64 → EReal) (Whu : Fin 64 → Fin 64 → EReal)
    (bh : Fin 64 → EReal) (c : Fin 64) : EReal :=
  max ((∑ q : Fin 128, hp q * Whp q c + ∑ q : Fin 64, u q * Whu q c) + bh c) 0

abbrev lo (q : Fin 128) : Fin 192 := ⟨q.val, by omega⟩

abbrev hi (q : Fin 64) : Fin 192 := ⟨128 + q.val, by omega⟩

/-- A sum over `Fin (128 + 64)` splits at 128; no finiteness is needed. -/
theorem sum192 (f : Fin 192 → EReal) : ∑ q : Fin 192, f q = ∑ q : Fin 128, f (lo q) + ∑ q : Fin 64, f (hi q) :=
  Fin.sum_univ_add (a := 128) (b := 64) f

theorem fcH_eq_split (h : Fin 192 → EReal) (Wh : Fin 192 → Fin 64 → EReal) (bh : Fin 64 → EReal) (c : Fin 64) :
    fcH h Wh bh c = fcSplit (fun q => h (lo q)) (fun q => h (hi q)) (fun q => Wh (lo q)) (fun q => Wh (hi q)) bh c := by
  unfold fcH fcSplit
  rw [sum192]

/-- Three rows of 64 laid side by side. -/
def hcat (hL hR u : Fin 64 → EReal) : Fin 192 → EReal := fun q =>
  if h : q.val < 64 then hL ⟨q.val, h⟩
  else if h2 : q.val < 128 then hR ⟨q.val - 64, by omega⟩
  else u ⟨q.val - 128, by omega⟩

def hpair (hL hR : Fin 64 → EReal) : Fin 128 → EReal := fun q =>
  if h : q.val < 64 then hL ⟨q.val, h⟩ else hR ⟨q.val - 64, by omega⟩

theorem hcat_lo (hL hR u : Fin 64 → EReal) (q : Fin 128) : hcat hL hR u (lo q) = hpair hL hR q := by
  unfold hcat hpair
  by_cases h : q.val < 64
  · simp only [h, dite_true]
  · have h2 : q.val < 128 := q.isLt
    simp only [h, h2, dite_true, dite_false]

theorem hcat_hi (hL hR u : Fin 64 → EReal) (q : Fin 64) : hcat hL hR u (hi q) = u q := by
  unfold hcat
  have h1 : ¬ (128 + q.val < 64) := by omega
  have h2 : ¬ (128 + q.val < 128) := by omega
  simp only [h1, h2, dite_false]
  exact congrArg u (Fin.ext (by show 128 + q.val - 128 = q.val; omega))

def levelRow (x : Fin 32 → EReal) (hL hR : Fin 64 → EReal) (Wu : Fin 32 → Fin 64 → EReal) (bu : Fin 64 → EReal)
    (Wh : Fin 192 → Fin 64 → EReal) (bh : Fin 64 → EReal) (c : Fin 64) : EReal :=
  fcH (hcat hL hR (fcU x Wu bu)) Wh bh c

theorem levelRow_eq_split (x : Fin 32 → EReal) (hL hR : Fin 64 → EReal) (Wu : Fin 32 → Fin 64 → EReal) (bu : Fin 64 → EReal)
    (Wh : Fin 192 → Fin 64 → EReal) (bh : Fin 64 → EReal) (c : Fin 64) :
    levelRow x hL hR Wu bu Wh bh c
      = fcSplit (hpair hL hR) (fcU x Wu bu) (fun q => Wh (lo q)) (fun q => Wh (hi q)) bh c := by
  unfold levelRow
  rw [fcH_eq_split]
  simp only [hcat_lo, hcat_hi]

/-- A negative index word counts from the end of the table. -/
def wrapWord (mw w : BitVec 32) : BitVec 32 := Scalar.select (IntOp.cmpi .slt w 0#32) (IntOp.addi w mw) w

/-- The row a child word names: wrapped, read signed, clamped into the table. -/
def childRow (m : Nat) (hm : 0 < m) (mw w : BitVec 32) : Fin m :=
  ⟨min (wrapWord mw w).toInt.toNat (m - 1), by omega⟩

def InRange (mw w : BitVec 32) : Prop :=
  IntOp.andi (IntOp.cmpi .sge w 0#32) (IntOp.cmpi .slt w mw) = 1#1

theorem andi1 {c d : BitVec 1} : IntOp.andi c d = 1#1 ↔ c = 1#1 ∧ d = 1#1 := by revert c d; decide

theorem ofBool1 (b : Bool) : BitVec.ofBool b = 1#1 ↔ b = true := by cases b <;> decide

/-- A word in range is not negative, so wrapping leaves it. -/
theorem wrapWord_of_inRange {mw w : BitVec 32} (h : InRange mw w) : wrapWord mw w = w := by
  have h0 : IntOp.cmpi .sge w 0#32 = 1#1 := (andi1.mp h).1
  have hn : ¬ (IntOp.cmpi .slt w 0#32 = 1) := by
    intro hlt
    simp only [IntOp.cmpi, ofBool1, BitVec.sle_eq_decide, decide_eq_true_eq, BitVec.reduceToInt] at h0
    have hlt' : IntOp.cmpi .slt w 0#32 = 1#1 := hlt
    simp only [IntOp.cmpi, ofBool1, BitVec.slt_eq_decide, decide_eq_true_eq, BitVec.reduceToInt] at hlt'
    omega
  unfold wrapWord Scalar.select
  rw [if_neg hn]

theorem valid_of_inRange {mw ml w : BitVec 32} (hml : ml.toInt + 1 = mw.toInt) (h : InRange mw w) :
    IntOp.andi (IntOp.cmpi .sge (wrapWord mw w) 0#32) (IntOp.cmpi .sle (wrapWord mw w) ml) = 1#1 := by
  rw [wrapWord_of_inRange h]
  have h0 : IntOp.cmpi .sge w 0#32 = 1#1 := (andi1.mp h).1
  have h1 : IntOp.cmpi .slt w mw = 1#1 := (andi1.mp h).2
  refine andi1.mpr ⟨h0, ?_⟩
  simp only [IntOp.cmpi, ofBool1, BitVec.slt_eq_decide, decide_eq_true_eq] at h1
  simp only [IntOp.cmpi, ofBool1, BitVec.sle_eq_decide, decide_eq_true_eq]
  omega

def tab2 {α : Type} {a b : Nat} (t : Fin a → Fin b → α) : (⟨2, ![a, b]⟩ : Shape).Idx → α := fun i => t (i 0) (i 1)

theorem eq_tab2 {α : Type} {a b : Nat} (f : (⟨2, ![a, b]⟩ : Shape).Idx → α) (t : Fin a → Fin b → α)
    (h : ∀ r c, f (ix2 r c) = t r c) : f = tab2 t := by
  funext i
  rw [eq_ix2 i]
  exact h _ _

/-- One inner level of the recurrence from the table of the level below. -/
def level {n m : Nat} (hm : 0 < m) (mw : BitVec 32) (x : Fin n → Fin 32 → EReal) (ch : Fin n → Fin 2 → BitVec 32)
    (prev : Fin m → Fin 64 → EReal) (Wu : Fin 32 → Fin 64 → EReal) (bu : Fin 64 → EReal)
    (Wh : Fin 192 → Fin 64 → EReal) (bh : Fin 64 → EReal) : Fin n → Fin 64 → EReal := fun r c =>
  levelRow (x r) (prev (childRow m hm mw (ch r 0))) (prev (childRow m hm mw (ch r 1))) Wu bu Wh bh c

def leaf {n : Nat} (x : Fin n → Fin 32 → EReal) (Wu : Fin 32 → Fin 64 → EReal) (bu : Fin 64 → EReal) :
    Fin n → Fin 64 → EReal := fun r c => fcU (x r) Wu bu c

structure Inputs where
  x0 : Fin 8192 → Fin 32 → EReal
  x1 : Fin 16384 → Fin 32 → EReal
  x2 : Fin 32768 → Fin 32 → EReal
  x3 : Fin 65536 → Fin 32 → EReal
  x4 : Fin 131072 → Fin 32 → EReal
  x5 : Fin 262144 → Fin 32 → EReal
  x6 : Fin 524288 → Fin 32 → EReal
  x7 : Fin 1048576 → Fin 32 → EReal
  x8 : Fin 2097152 → Fin 32 → EReal
  ch0 : Fin 8192 → Fin 2 → BitVec 32
  ch1 : Fin 16384 → Fin 2 → BitVec 32
  ch2 : Fin 32768 → Fin 2 → BitVec 32
  ch3 : Fin 65536 → Fin 2 → BitVec 32
  ch4 : Fin 131072 → Fin 2 → BitVec 32
  ch5 : Fin 262144 → Fin 2 → BitVec 32
  ch6 : Fin 524288 → Fin 2 → BitVec 32
  ch7 : Fin 1048576 → Fin 2 → BitVec 32
  Wu : Fin 32 → Fin 64 → EReal
  bu : Fin 64 → EReal
  Wh : Fin 192 → Fin 64 → EReal
  bh : Fin 64 → EReal

def emb8 (A : Inputs) : Fin 2097152 → Fin 64 → EReal := leaf A.x8 A.Wu A.bu
def emb7 (A : Inputs) : Fin 1048576 → Fin 64 → EReal := level (by decide) 2097152#32 A.x7 A.ch7 (emb8 A) A.Wu A.bu A.Wh A.bh
def emb6 (A : Inputs) : Fin 524288 → Fin 64 → EReal := level (by decide) 1048576#32 A.x6 A.ch6 (emb7 A) A.Wu A.bu A.Wh A.bh
def emb5 (A : Inputs) : Fin 262144 → Fin 64 → EReal := level (by decide) 524288#32 A.x5 A.ch5 (emb6 A) A.Wu A.bu A.Wh A.bh
def emb4 (A : Inputs) : Fin 131072 → Fin 64 → EReal := level (by decide) 262144#32 A.x4 A.ch4 (emb5 A) A.Wu A.bu A.Wh A.bh
def emb3 (A : Inputs) : Fin 65536 → Fin 64 → EReal := level (by decide) 131072#32 A.x3 A.ch3 (emb4 A) A.Wu A.bu A.Wh A.bh
def emb2 (A : Inputs) : Fin 32768 → Fin 64 → EReal := level (by decide) 65536#32 A.x2 A.ch2 (emb3 A) A.Wu A.bu A.Wh A.bh
def emb1 (A : Inputs) : Fin 16384 → Fin 64 → EReal := level (by decide) 32768#32 A.x1 A.ch1 (emb2 A) A.Wu A.bu A.Wh A.bh
def emb0 (A : Inputs) : Fin 8192 → Fin 64 → EReal := level (by decide) 16384#32 A.x0 A.ch0 (emb1 A) A.Wu A.bu A.Wh A.bh

def inputsOf (a0 : FVec Ideal ⟨2, ![8192, 32]⟩ .f32) (a1 : FVec Ideal ⟨2, ![16384, 32]⟩ .f32)
    (a2 : FVec Ideal ⟨2, ![32768, 32]⟩ .f32) (a3 : FVec Ideal ⟨2, ![65536, 32]⟩ .f32)
    (a4 : FVec Ideal ⟨2, ![131072, 32]⟩ .f32) (a5 : FVec Ideal ⟨2, ![262144, 32]⟩ .f32)
    (a6 : FVec Ideal ⟨2, ![524288, 32]⟩ .f32) (a7 : FVec Ideal ⟨2, ![1048576, 32]⟩ .f32)
    (a8 : FVec Ideal ⟨2, ![2097152, 32]⟩ .f32)
    (c0 : IVec ⟨2, ![8192, 2]⟩ 32) (c1 : IVec ⟨2, ![16384, 2]⟩ 32) (c2 : IVec ⟨2, ![32768, 2]⟩ 32)
    (c3 : IVec ⟨2, ![65536, 2]⟩ 32) (c4 : IVec ⟨2, ![131072, 2]⟩ 32) (c5 : IVec ⟨2, ![262144, 2]⟩ 32)
    (c6 : IVec ⟨2, ![524288, 2]⟩ 32) (c7 : IVec ⟨2, ![1048576, 2]⟩ 32)
    (wu : FVec Ideal ⟨2, ![32, 64]⟩ .f32) (bu : FVec Ideal ⟨1, ![64]⟩ .f32)
    (wh : FVec Ideal ⟨2, ![192, 64]⟩ .f32) (bh : FVec Ideal ⟨1, ![64]⟩ .f32) : Inputs where
  x0 := fun r i => a0 (ix2 r i)
  x1 := fun r i => a1 (ix2 r i)
  x2 := fun r i => a2 (ix2 r i)
  x3 := fun r i => a3 (ix2 r i)
  x4 := fun r i => a4 (ix2 r i)
  x5 := fun r i => a5 (ix2 r i)
  x6 := fun r i => a6 (ix2 r i)
  x7 := fun r i => a7 (ix2 r i)
  x8 := fun r i => a8 (ix2 r i)
  ch0 := fun r s => c0 (ix2 r s)
  ch1 := fun r s => c1 (ix2 r s)
  ch2 := fun r s => c2 (ix2 r s)
  ch3 := fun r s => c3 (ix2 r s)
  ch4 := fun r s => c4 (ix2 r s)
  ch5 := fun r s => c5 (ix2 r s)
  ch6 := fun r s => c6 (ix2 r s)
  ch7 := fun r s => c7 (ix2 r s)
  Wu := fun i c => wu (ix2 i c)
  bu := fun c => bu (ix1 c)
  Wh := fun q c => wh (ix2 q c)
  bh := fun c => bh (ix1 c)

def ChildrenOk {n : Nat} (mw : BitVec 32) (ch : IVec ⟨2, ![n, 2]⟩ 32) : Prop :=
  ∀ (r : Fin n) (s : Fin 2), InRange mw (ch (ix2 r s))

end Cert.Tree

end
-- ==== Proof.PreChildren.lean ====
import proofs.«426877_j670014898785_2_alg».proof.Pre_finite_inputs
import proofs.«426877_j670014898785_2_alg».proof.Proof.Spec
import Idealize.ShloMosaic.Lib.ReduceAll

noncomputable section

namespace Cert.PreChildren

open Idealize.ShloMosaic Idealize.ShloMosaic.ValueIdx Cert.Pre_finite_inputs Cert.Tree

variable [Cert.Pre_finite_inputs.Facts]

instance : Subsingleton S_.Idx := ⟨fun a b => funext fun d => d.elim0⟩

structure AllOk (c0 : IVec S8192x2 32) (c1 : IVec S16384x2 32) (c2 : IVec S32768x2 32) (c3 : IVec S65536x2 32)
    (c4 : IVec S131072x2 32) (c5 : IVec S262144x2 32) (c6 : IVec S524288x2 32) (c7 : IVec S1048576x2 32) : Prop where
  ok0 : ChildrenOk 16384#32 c0
  ok1 : ChildrenOk 32768#32 c1
  ok2 : ChildrenOk 65536#32 c2
  ok3 : ChildrenOk 131072#32 c3
  ok4 : ChildrenOk 262144#32 c4
  ok5 : ChildrenOk 524288#32 c5
  ok6 : ChildrenOk 1048576#32 c6
  ok7 : ChildrenOk 2097152#32 c7

variable {F : FTy → Type} [FloatOps F]

/-- The precondition is a conjunction of bits whose last eight are all-reductions of the range test. -/
theorem allOk_of_pre (a0 : FVec F S8192x32 .f32) (a1 : FVec F S16384x32 .f32) (a2 : FVec F S32768x32 .f32)
    (a3 : FVec F S65536x32 .f32) (a4 : FVec F S131072x32 .f32) (a5 : FVec F S262144x32 .f32)
    (a6 : FVec F S524288x32 .f32) (a7 : FVec F S1048576x32 .f32) (a8 : FVec F S2097152x32 .f32)
    (c0 : IVec S8192x2 32) (c1 : IVec S16384x2 32) (c2 : IVec S32768x2 32) (c3 : IVec S65536x2 32)
    (c4 : IVec S131072x2 32) (c5 : IVec S262144x2 32) (c6 : IVec S524288x2 32) (c7 : IVec S1048576x2 32)
    (wu : FVec F S32x64 .f32) (bu : FVec F S64 .f32) (wh : FVec F S192x64 .f32) (bh : FVec F S64 .f32)
    (h : fn (F := F) a0 a1 a2 a3 a4 a5 a6 a7 a8 c0 c1 c2 c3 c4 c5 c6 c7 wu bu wh bh = fun _ => 1#1) :
    AllOk c0 c1 c2 c3 c4 c5 c6 c7 := by
  have h0 := congrFun h ix0
  dsimp only [fn, fn_part1, fn_part2, fn_part3, fn_part4, fn_part5, fn_part6, fn_part7] at h0
  obtain ⟨h0, k7⟩ := andi1.mp h0
  obtain ⟨h0, k6⟩ := andi1.mp h0
  obtain ⟨h0, k5⟩ := andi1.mp h0
  obtain ⟨h0, k4⟩ := andi1.mp h0
  obtain ⟨h0, k3⟩ := andi1.mp h0
  obtain ⟨h0, k2⟩ := andi1.mp h0
  obtain ⟨h0, k1⟩ := andi1.mp h0
  obtain ⟨h0, k0⟩ := andi1.mp h0
  exact ⟨fun r s => Host.reduce_andi_all _ _ _ _ _ k0 (ix2 r s), fun r s => Host.reduce_andi_all _ _ _ _ _ k1 (ix2 r s),
    fun r s => Host.reduce_andi_all _ _ _ _ _ k2 (ix2 r s), fun r s => Host.reduce_andi_all _ _ _ _ _ k3 (ix2 r s),
    fun r s => Host.reduce_andi_all _ _ _ _ _ k4 (ix2 r s), fun r s => Host.reduce_andi_all _ _ _ _ _ k5 (ix2 r s),
    fun r s => Host.reduce_andi_all _ _ _ _ _ k6 (ix2 r s), fun r s => Host.reduce_andi_all _ _ _ _ _ k7 (ix2 r s)⟩

end Cert.PreChildren

end
-- ==== Proof.KerKeep.lean ====
import proofs.«426877_j670014898785_2_alg».proof.Proof.Gen.KernelIdeal.Frame
import proofs.«426877_j670014898785_2_alg».proof.Proof.Spec
import Idealize.ShloMosaic.Lib.ValueLayout

noncomputable section

namespace Cert.KernelIdeal.Val

open Idealize.ShloMosaic Idealize.ShloMosaic.TcCoe Idealize.ShloMosaic.ValueIdx Cert.KernelIdeal Cert.KernelIdeal.Gen

variable {F : FTy → Type} [FloatOps F]

/-- The buffer of a reference of index k or more. -/
def From (k : Nat) (b : DevRef τ sig) : Prop := ∃ y : Ref sig .tc, k ≤ y.idx.val ∧ Proc.devRef .tc y = b

theorem writes_from {k : Nat} {op : HloOp τ sig (Elt F)} {y : Ref sig .tc} (hw : op.writes = {Proc.devRef .tc y})
    (h : k ≤ y.idx.val) : ∀ b ∈ op.writes, From k b := fun b hb => by
  rw [hw, Finset.mem_singleton] at hb
  exact hb ▸ ⟨y, h, rfl⟩

/-- Host operations that write only buffers of index k or more leave every buffer of smaller index as it was. -/
theorem after_below {k : Nat} (ops : List (HloOp τ sig (Elt F))) (V : Valuation τ sig (Elt F))
    (hW : ops.Forall fun op => ∀ b ∈ op.writes, From k b) (r : Ref sig .tc) (hr : r.idx.val < k) :
    StableHlo.after ops V (Proc.devRef .tc r) = V (Proc.devRef .tc r) :=
  StableHlo.after_of_forall_not_mem ops V fun op hop hb => by
    obtain ⟨y, hy, he⟩ := List.forall_iff_forall_mem.mp hW op hop _ hb
    obtain rfl := Proc.devRef_injective _ he
    omega

variable (m : (ℓ : Loc nD τ sig) → Buf (Elt F) ℓ) (ρ : Dev nD → PrngReg)

/-- Y holds at every argument and at the two cuts of Wh what the leaf kernel's entry held. -/
def Kept (c : Dev nD) (Y : Valuation τ sig (Elt F)) : Prop :=
  ∀ r : Ref sig .tc, r.idx.val < 23 → Y (Proc.devRef .tc r) = W1 m ρ c (Proc.devRef .tc r)

section
variable {m ρ} {c : Dev nD} {Y : Valuation τ sig (Elt F)}

theorem Kept.after (h : Kept m ρ c Y) (ops : List (HloOp τ sig (Elt F)))
    (hW : ops.Forall fun op => ∀ b ∈ op.writes, From 23 b) : Kept m ρ c (StableHlo.after ops Y) :=
  fun r hr => (after_below ops Y hW r hr).trans (h r hr)

/-- A kernel whose output arrays have index 23 or more leaves its input arrays, and every buffer that is no array of its own, as it found them. -/
theorem Kept.region (h : Kept m ρ c Y) {X : Valuation τ sig (Elt F)} {W : Nat} {ref : Fin W → Ref sig .tc}
    {out : Fin W → Bool} (harr : ∀ w, out w = false → X (Proc.devRef .tc (ref w)) = Y (Proc.devRef .tc (ref w)))
    (hne : ∀ b, (∀ w, ref w ≠ b) → X (Proc.devRef .tc b) = Y (Proc.devRef .tc b))
    (hout : ∀ w, out w = true → 23 ≤ (ref w).idx.val) : Kept m ρ c X := fun r hr => by
  refine Eq.trans ?_ (h r hr)
  by_cases hw : ∃ w, ref w = r
  · obtain ⟨w, rfl⟩ := hw
    cases ho : out w with
    | false => exact harr w ho
    | true => exact absurd (hout w ho) (Nat.not_le.mpr hr)
  · exact hne r fun w e => hw ⟨w, e⟩

/-- Before the leaf kernel the host only cuts Wh in two (buffers 21 and 22), so an argument Y keeps is as launched. -/
theorem Kept.arg (h : Kept m ρ c Y) (r : Ref sig .tc) (hr : r.idx.val < 21) :
    Y (Proc.devRef .tc r) = m ((c : Thread nD τ).loc r) :=
  (h r (Nat.lt_of_lt_of_le hr (by decide))).trans <|
    after_below hostOps0 _ ⟨writes_from rfl (by decide), writes_from rfl (by decide)⟩ r hr

theorem Kept.whp (h : Kept m ρ c Y) (q : Fin 128) (j : Fin 64) :
    (Y (Proc.devRef .tc main_v0) : FVec F S128x64 .f32) (ix2 q j)
      = (m ((c : Thread nD τ).loc main_arg19) : FVec F S192x64 .f32) (ix2 (Cert.Tree.lo q) j) := by
  rw [h main_v0 (by decide), show (W1 m ρ c (Proc.devRef .tc main_v0) : FVec F S128x64 .f32)
      = extractStridedSlice S128x64 ![0, 0] (m ((c : Thread nD τ).loc main_arg19) : FVec F S192x64 .f32)
          Facts₀.slices_S192x64_S128x64_0_0 by
    show StableHlo.after hostOps0 _ (Proc.devRef .tc main_v0) = _
    after_results]
  exact slice2_axis0_apply 0 _ _ q j (Cert.Tree.lo q) (Nat.zero_add _).symm

theorem Kept.whu (h : Kept m ρ c Y) (q : Fin 64) (j : Fin 64) :
    (Y (Proc.devRef .tc main_v1) : FVec F S64x64 .f32) (ix2 q j)
      = (m ((c : Thread nD τ).loc main_arg19) : FVec F S192x64 .f32) (ix2 (Cert.Tree.hi q) j) := by
  rw [h main_v1 (by decide), show (W1 m ρ c (Proc.devRef .tc main_v1) : FVec F S64x64 .f32)
      = extractStridedSlice S64x64 ![128, 0] (m ((c : Thread nD τ).loc main_arg19) : FVec F S192x64 .f32)
          Facts₀.slices_S192x64_S64x64_128_0 by
    show StableHlo.after hostOps0 _ (Proc.devRef .tc main_v1) = _
    after_results]
  exact slice2_axis0_apply 128 _ _ q j (Cert.Tree.hi q) rfl

end

variable (c : Dev nD)

theorem entry0 : Kept m ρ c (W1 m ρ c) := fun _ _ => rfl

theorem exit1 : Kept m ρ c (W2 m ρ c) :=
  (entry0 m ρ c).region
    (fun w hw => (W2_arr m ρ c w).trans (((dat0 (V1 m ρ) c).arrAt_in w hw _).trans (A_eq0 (V1 m ρ) c w)))
    (W2_of_ne m ρ c) (by decide)

theorem entry1 : Kept m ρ c (W4 m ρ c) := by
  refine ((exit1 m ρ c).after hostOps1 ?_).after hostOps1_1 ?_ <;> repeat' apply And.intro
  all_goals exact writes_from rfl (by decide)

theorem exit2 : Kept m ρ c (W5 m ρ c) :=
  (entry1 m ρ c).region
    (fun w hw => (W5_arr m ρ c w).trans (((dat1 (V4 m ρ) c).arrAt_in w hw _).trans (A_eq1 (V4 m ρ) c w)))
    (W5_of_ne m ρ c) (by decide)

theorem entry2 : Kept m ρ c (W7 m ρ c) := by
  refine ((exit2 m ρ c).after hostOps2 ?_).after hostOps2_1 ?_ <;> repeat' apply And.intro
  all_goals exact writes_from rfl (by decide)

theorem exit3 : Kept m ρ c (W8 m ρ c) :=
  (entry2 m ρ c).region
    (fun w hw => (W8_arr m ρ c w).trans (((dat2 (V7 m ρ) c).arrAt_in w hw _).trans (A_eq2 (V7 m ρ) c w)))
    (W8_of_ne m ρ c) (by decide)

theorem entry3 : Kept m ρ c (W10 m ρ c) := by
  refine ((exit3 m ρ c).after hostOps3 ?_).after hostOps3_1 ?_ <;> repeat' apply And.intro
  all_goals exact writes_from rfl (by decide)

theorem exit4 : Kept m ρ c (W11 m ρ c) :=
  (entry3 m ρ c).region
    (fun w hw => (W11_arr m ρ c w).trans (((dat3 (V10 m ρ) c).arrAt_in w hw _).trans (A_eq3 (V10 m ρ) c w)))
    (W11_of_ne m ρ c) (by decide)

theorem entry4 : Kept m ρ c (W13 m ρ c) := by
  refine ((exit4 m ρ c).after hostOps4 ?_).after hostOps4_1 ?_ <;> repeat' apply And.intro
  all_goals exact writes_from rfl (by decide)

theorem exit5 : Kept m ρ c (W14 m ρ c) :=
  (entry4 m ρ c).region
    (fun w hw => (W14_arr m ρ c w).trans (((dat4 (V13 m ρ) c).arrAt_in w hw _).trans (A_eq4 (V13 m ρ) c w)))
    (W14_of_ne m ρ c) (by decide)

theorem entry5 : Kept m ρ c (W16 m ρ c) := by
  refine ((exit5 m ρ c).after hostOps5 ?_).after hostOps5_1 ?_ <;> repeat' apply And.intro
  all_goals exact writes_from rfl (by decide)

theorem exit6 : Kept m ρ c (W17 m ρ c) :=
  (entry5 m ρ c).region
    (fun w hw => (W17_arr m ρ c w).trans (((dat5 (V16 m ρ) c).arrAt_in w hw _).trans (A_eq5 (V16 m ρ) c w)))
    (W17_of_ne m ρ c) (by decide)

theorem entry6 : Kept m ρ c (W19 m ρ c) := by
  refine ((exit6 m ρ c).after hostOps6 ?_).after hostOps6_1 ?_ <;> repeat' apply And.intro
  all_goals exact writes_from rfl (by decide)

theorem exit7 : Kept m ρ c (W20 m ρ c) :=
  (entry6 m ρ c).region
    (fun w hw => (W20_arr m ρ c w).trans (((dat6 (V19 m ρ) c).arrAt_in w hw _).trans (A_eq6 (V19 m ρ) c w)))
    (W20_of_ne m ρ c) (by decide)

theorem entry7 : Kept m ρ c (W22 m ρ c) := by
  refine ((exit7 m ρ c).after hostOps7 ?_).after hostOps7_1 ?_ <;> repeat' apply And.intro
  all_goals exact writes_from rfl (by decide)

theorem exit8 : Kept m ρ c (W23 m ρ c) :=
  (entry7 m ρ c).region
    (fun w hw => (W23_arr m ρ c w).trans (((dat7 (V22 m ρ) c).arrAt_in w hw _).trans (A_eq7 (V22 m ρ) c w)))
    (W23_of_ne m ρ c) (by decide)

theorem entry8 : Kept m ρ c (W25 m ρ c) := by
  refine ((exit8 m ρ c).after hostOps8 ?_).after hostOps8_1 ?_ <;> repeat' apply And.intro
  all_goals exact writes_from rfl (by decide)

end Cert.KernelIdeal.Val

end
-- ==== Proof.LibMatmul.lean ====
import Idealize.ShloMosaic.Lib.StackMember
import Idealize.ShloMosaic.Lib.ValueLayout

noncomputable section

namespace Cert.LibMatmul

open Idealize.ShloMosaic Idealize.ShloMosaic.ValueIdx

variable {n k k' m : Nat} (A : FVec Ideal ⟨2, ![n, k]⟩ .f32) (B : FVec Ideal ⟨2, ![k, m]⟩ .f32) (b : FVec Ideal ⟨1, ![m]⟩ .f32)
  (h1 : (⟨1, ![m]⟩ : Shape).ShapeCasts ⟨2, ![1, m]⟩) (h2 : (⟨2, ![1, m]⟩ : Shape).Broadcasts ⟨2, ![n, m]⟩)
  (r : Fin n) (c : Fin m)

/-- A plain `[n, k] · [k, m]` product into the zero array, read at `(r, c)`, is the sum over the shared axis. -/
theorem matmul_plain_apply :
    matmul (DotDims.plain n k m) none A B (constant (F := Ideal) ⟨2, ![n, m]⟩ .f32 0x00000000#32) (ix2 r c)
      = ∑ q : Fin k, A (ix2 r q) * B (ix2 q c) :=
  (congrFun (matmul_zero_eq_dotGeneral _ none A B) _).trans (StackMember.dotGeneral_plain_apply none A B r c)

/-- A row of `m` numbers spread over `n` rows, read at `(r, c)`, is the row's entry at `c`. -/
theorem bias_apply : broadcastTo ⟨2, ![n, m]⟩ (shapeCast ⟨2, ![1, m]⟩ b h1) h2 (ix2 r c) = b (ix1 c) :=
  (broadcastTo_1b_ab_apply _ h2 r c).trans (shapeCast_a_1a_apply b h1 0 c)

/-- `relu(A · B + b)` read at `(r, c)`. -/
theorem relu_affine_apply :
    maximumf (addf (matmul (DotDims.plain n k m) none A B (constant (F := Ideal) ⟨2, ![n, m]⟩ .f32 0x00000000#32))
        (broadcastTo ⟨2, ![n, m]⟩ (shapeCast ⟨2, ![1, m]⟩ b h1) h2))
      (broadcast ⟨2, ![n, m]⟩ (Scalar.ofBits .f32 0x00000000#32 : Ideal .f32)) (ix2 r c)
      = max (∑ q : Fin k, A (ix2 r q) * B (ix2 q c) + b (ix1 c)) 0 := by
  rw [maximumf_apply, addf_apply, broadcast_apply, matmul_plain_apply, bias_apply]
  exact congrArg (max _) Ideal.ofBits_zero_f32

/-- `relu((A · B + A' · B') + b)` read at `(r, c)`, row `r` of `A'` named `U`. -/
theorem relu_affine2_apply (A' : FVec Ideal ⟨2, ![n, k']⟩ .f32) (B' : FVec Ideal ⟨2, ![k', m]⟩ .f32)
    (U : Fin k' → EReal) (hU : ∀ q, A' (ix2 r q) = U q) :
    maximumf (addf (addf (matmul (DotDims.plain n k m) none A B (constant (F := Ideal) ⟨2, ![n, m]⟩ .f32 0x00000000#32))
          (matmul (DotDims.plain n k' m) none A' B' (constant (F := Ideal) ⟨2, ![n, m]⟩ .f32 0x00000000#32)))
        (broadcastTo ⟨2, ![n, m]⟩ (shapeCast ⟨2, ![1, m]⟩ b h1) h2))
      (broadcast ⟨2, ![n, m]⟩ (Scalar.ofBits .f32 0x00000000#32 : Ideal .f32)) (ix2 r c)
      = max ((∑ q : Fin k, A (ix2 r q) * B (ix2 q c) + ∑ q : Fin k', U q * B' (ix2 q c)) + b (ix1 c)) 0 := by
  obtain rfl : (fun q => A' (ix2 r q)) = U := funext hU
  rw [maximumf_apply, addf_apply, addf_apply, broadcast_apply, matmul_plain_apply, matmul_plain_apply, bias_apply]
  exact congrArg (max _) Ideal.ofBits_zero_f32

end Cert.LibMatmul

end
-- ==== Proof.KerBody0.lean ====
import proofs.«426877_j670014898785_2_alg».proof.Proof.Gen.KernelIdeal.Skeleton
import proofs.«426877_j670014898785_2_alg».proof.Proof.Spec
import proofs.«426877_j670014898785_2_alg».proof.Proof.LibMatmul

noncomputable section

namespace Cert.KernelIdeal.Val

open Idealize.ShloMosaic Idealize.ShloMosaic.ValueIdx Cert.KernelIdeal Cert.LibMatmul

/-- The leaf body stores `relu(x · Wu + bu)`. -/
theorem pay0_apply (v0 : Vec Ideal S16384x32 .f32) (v1 : Vec Ideal S32x64 .f32) (v3 : Vec Ideal S64 .f32) (r : Fin 16384) (c : Fin 64) :
    Gen.k0_pay1 (F := Ideal) v0 v1 v3 (ix2 r c)
      = Cert.Tree.fcU (fun i => v0 (ix2 r i)) (fun i j => v1 (ix2 i j)) (fun j => v3 (ix1 j)) c :=
  relu_affine_apply v0 v1 v3 _ _ r c

end Cert.KernelIdeal.Val

end
-- ==== Proof.KerArrLib.lean ====
import proofs.«426877_j670014898785_2_alg».proof.Proof.Spec
import Idealize.ShloMosaic.Lib.Pipeline.Value
import Idealize.ShloMosaic.Lib.ValueIdx

noncomputable section

namespace Cert.KernelIdeal.Val

open Idealize.ShloMosaic Idealize.ShloMosaic.ValueIdx Cert.Tree

theorem hz2 : (![0, 0] : Fin 2 → Nat) = fun _ => 0 := funext fun a => by fin_cases a <;> rfl

section Loads

variable {Val : EltTy → Type} {e : EltTy}

theorem ld2 {n m : Nat} (inb) (X : (⟨2, ![n, m]⟩ : Shape).Idx → Val e) :
    View.ld X (Rect.unit (s := ⟨2, ![n, m]⟩) ![0, 0] ![n, m] inb) = X :=
  View.ld_unit_zero hz2 inb X

theorem ld1 {n : Nat} (inb) (X : (⟨1, ![n]⟩ : Shape).Idx → Val e) :
    View.ld X (Rect.unit (s := ⟨1, ![n]⟩) ![0] ![n] inb) = X :=
  View.ld_unit_zero (funext fun a => by fin_cases a; rfl) inb X

theorem canon2 [∀ e, Nonempty (Val e)] {n m : Nat} (inb) (w : (⟨2, ![n, m]⟩ : Shape).Idx → Val e) :
    View.canon [(⟨Rect.unit (s := ⟨2, ![n, m]⟩) ![0, 0] ![n, m] inb, w⟩ : View.Piece Val ⟨2, ![n, m]⟩ e)] = w :=
  View.canon_unit_zero hz2 inb w

end Loads

theorem funext_ix2 {n0 n1 : Nat} {α : Type} {f g : (⟨2, ![n0, n1]⟩ : Shape).Idx → α}
    (h : ∀ p q, f (ix2 p q) = g (ix2 p q)) : f = g :=
  funext fun y => (congrArg f (eq_ix2 y)).trans ((h _ _).trans (congrArg g (eq_ix2 y)).symm)

theorem mem_set_of_emb {sig : RefSig} {κ : Kind} {sp : Space} {s : Shape} {e : EltTy} (v : View sig κ sp s e) {i : v.ty.Idx}
    (h : ∃ y, v.emb y = i) : i ∈ v.set :=
  h.elim fun y e => e ▸ v.emb_mem_set y

/-- The rectangle of block number `idx` among the blocks of extents `size`. -/
abbrev blkRect (s : Shape) (size idx : Fin s.rank → Nat) (inb : ∀ a, idx a * size a + size a ≤ s.size a) : Rect s :=
  Rect.unit (fun a => idx a * size a) size inb

abbrev ZeroAt {r : Nat} (idx : Fin r → Nat) : Prop := ∀ a, idx a = 0

abbrev RowAt (idx : Fin 2 → Nat) (T : Nat) : Prop := idx 0 = T ∧ idx 1 = 0

/-- A block that is the whole array, at block number 0, sits where the array does. -/
theorem emb_zero {s : Shape} {idx : Fin s.rank → Nat} (h : ZeroAt idx) (inb) (y : s.Idx) :
    (blkRect s s.size idx inb).emb y = y :=
  funext fun a => Fin.ext (by show idx a * s.size a + 1 * (y a).val = (y a).val; rw [h a]; omega)

/-- Row `p` of row block `T` is row `T * B + p` of the array. -/
theorem emb_rows {n m B T : Nat} {idx : Fin 2 → Nat} (h : RowAt idx T) (inb) (p : Fin B) (k : Fin m) (r : Fin n)
    (hr : r.val = T * B + p.val) : (blkRect ⟨2, ![n, m]⟩ ![B, m] idx inb).emb (ix2 p k) = ix2 r k :=
  Shape.idx_ext₂ (by show idx 0 * B + 1 * p.val = r.val; rw [h.1, hr, Nat.one_mul])
    (by show idx 1 * m + 1 * k.val = k.val; rw [h.2, Nat.zero_mul, Nat.zero_add, Nat.one_mul])

/-- Row `r` lies in row block `r / B`. -/
theorem cover_rows {n m B N : Nat} {idx : Fin N → Fin 2 → Nat} (h : ∀ t, RowAt (idx t) t.val) (hn : N * B = n)
    (inb : ∀ t a, idx t a * ![B, m] a + ![B, m] a ≤ (⟨2, ![n, m]⟩ : Shape).size a)
    (i : (⟨2, ![n, m]⟩ : Shape).Idx) : ∃ t y, (blkRect ⟨2, ![n, m]⟩ ![B, m] (idx t) (inb t)).emb y = i := by
  have hi : (i 0).val < N * B := lt_of_lt_of_eq (idx2_lt0 i) hn.symm
  have hB : 0 < B := Nat.pos_of_ne_zero fun e => by rw [e] at hi; exact Nat.not_lt_zero _ hi
  exact ⟨⟨_, (Nat.div_lt_iff_lt_mul hB).2 hi⟩, ix2 ⟨(i 0).val % B, Nat.mod_lt _ hB⟩ (i 1),
    (emb_rows (h _) _ _ _ (i 0) (Nat.div_add_mod' _ _).symm).trans (eq_ix2 i).symm⟩

/-- The leaf level's table, index by index. -/
abbrev leafTable {n : Nat} (x : FVec Ideal ⟨2, ![n, 32]⟩ .f32) (wu : FVec Ideal ⟨2, ![32, 64]⟩ .f32) (bu : FVec Ideal ⟨1, ![64]⟩ .f32)
    (i : (⟨2, ![n, 64]⟩ : Shape).Idx) : Elt Ideal .f32 :=
  fcU (fun k => x (ix2 (i 0) k)) (fun k j => wu (ix2 k j)) (fun j => bu (ix1 j)) (i 1)

/-- An inner level's table, index by index. -/
abbrev table {n : Nat} (h : FVec Ideal ⟨2, ![n, 128]⟩ .f32) (x : FVec Ideal ⟨2, ![n, 32]⟩ .f32) (wu : FVec Ideal ⟨2, ![32, 64]⟩ .f32)
    (bu : FVec Ideal ⟨1, ![64]⟩ .f32) (whp : FVec Ideal ⟨2, ![128, 64]⟩ .f32) (whu : FVec Ideal ⟨2, ![64, 64]⟩ .f32)
    (bh : FVec Ideal ⟨1, ![64]⟩ .f32) (i : (⟨2, ![n, 64]⟩ : Shape).Idx) : Elt Ideal .f32 :=
  fcSplit (fun q => h (ix2 (i 0) q)) (fcU (fun k => x (ix2 (i 0) k)) (fun k j => wu (ix2 k j)) (fun j => bu (ix1 j)))
    (fun q j => whp (ix2 q j)) (fun q j => whu (ix2 q j)) (fun j => bh (ix1 j)) (i 1)

/-- What a point's body makes of the blocks it reads is the leaf table's block where the point writes. -/
theorem leaf_rows {n B T : Nat} {i0 i1 i3 : Fin 2 → Nat} {i2 : Fin 1 → Nat} (e0 : RowAt i0 T) (e1 : ZeroAt i1) (e2 : ZeroAt i2)
    (e3 : RowAt i3 T) (b0) (b1) (b2) (b3) (x : FVec Ideal ⟨2, ![n, 32]⟩ .f32) (wu : FVec Ideal ⟨2, ![32, 64]⟩ .f32)
    (bu : FVec Ideal ⟨1, ![64]⟩ .f32)
    (pay : Vec Ideal ⟨2, ![B, 32]⟩ .f32 → Vec Ideal ⟨2, ![32, 64]⟩ .f32 → Vec Ideal ⟨1, ![64]⟩ .f32 → Vec Ideal ⟨2, ![B, 64]⟩ .f32)
    (hpay : ∀ v0 v1 v3 (r : Fin B) (c : Fin 64),
      pay v0 v1 v3 (ix2 r c) = fcU (fun i => v0 (ix2 r i)) (fun i j => v1 (ix2 i j)) (fun j => v3 (ix1 j)) c) :
    pay (fun y => x ((blkRect ⟨2, ![n, 32]⟩ ![B, 32] i0 b0).emb y)) (fun y => wu ((blkRect ⟨2, ![32, 64]⟩ ![32, 64] i1 b1).emb y))
        (fun y => bu ((blkRect ⟨1, ![64]⟩ ![64] i2 b2).emb y))
      = fun y => leafTable x wu bu ((blkRect ⟨2, ![n, 64]⟩ ![B, 64] i3 b3).emb y) :=
  funext_ix2 fun p q => (hpay _ _ _ p q).trans (by
    have hB : i3 0 * B + B ≤ n := b3 0
    have hr : T * B + p.val < n := by have := p.isLt; rw [e3.1] at hB; omega
    rw [emb_rows e3 b3 p q ⟨_, hr⟩ rfl]
    simp only [emb_rows e0 b0 p _ ⟨_, hr⟩ rfl, emb_zero (s := ⟨2, ![32, 64]⟩) e1, emb_zero (s := ⟨1, ![64]⟩) e2]
    rfl)

/-- What a point's body makes of the blocks it reads is the inner table's block where the point writes. -/
theorem table_rows {n B T : Nat} {i0 i1 i2 i4 i5 i7 : Fin 2 → Nat} {i3 i6 : Fin 1 → Nat} (e0 : RowAt i0 T) (e1 : RowAt i1 T)
    (e2 : ZeroAt i2) (e3 : ZeroAt i3) (e4 : ZeroAt i4) (e5 : ZeroAt i5) (e6 : ZeroAt i6) (e7 : RowAt i7 T)
    (b0) (b1) (b2) (b3) (b4) (b5) (b6) (b7) (h : FVec Ideal ⟨2, ![n, 128]⟩ .f32) (x : FVec Ideal ⟨2, ![n, 32]⟩ .f32)
    (wu : FVec Ideal ⟨2, ![32, 64]⟩ .f32) (bu : FVec Ideal ⟨1, ![64]⟩ .f32) (whp : FVec Ideal ⟨2, ![128, 64]⟩ .f32)
    (whu : FVec Ideal ⟨2, ![64, 64]⟩ .f32) (bh : FVec Ideal ⟨1, ![64]⟩ .f32)
    (pay : Vec Ideal ⟨2, ![B, 32]⟩ .f32 → Vec Ideal ⟨2, ![32, 64]⟩ .f32 → Vec Ideal ⟨1, ![64]⟩ .f32 → Vec Ideal ⟨2, ![B, 128]⟩ .f32
      → Vec Ideal ⟨2, ![128, 64]⟩ .f32 → Vec Ideal ⟨2, ![64, 64]⟩ .f32 → Vec Ideal ⟨1, ![64]⟩ .f32 → Vec Ideal ⟨2, ![B, 64]⟩ .f32)
    (hpay : ∀ v0 v1 v3 v9 v11 v14 v18 (r : Fin B) (c : Fin 64), pay v0 v1 v3 v9 v11 v14 v18 (ix2 r c)
      = fcSplit (fun q => v9 (ix2 r q)) (fcU (fun i => v0 (ix2 r i)) (fun i j => v1 (ix2 i j)) (fun j => v3 (ix1 j)))
          (fun q j => v11 (ix2 q j)) (fun q j => v14 (ix2 q j)) (fun j => v18 (ix1 j)) c) :
    pay (fun y => x ((blkRect ⟨2, ![n, 32]⟩ ![B, 32] i0 b0).emb y)) (fun y => wu ((blkRect ⟨2, ![32, 64]⟩ ![32, 64] i2 b2).emb y))
        (fun y => bu ((blkRect ⟨1, ![64]⟩ ![64] i3 b3).emb y)) (fun y => h ((blkRect ⟨2, ![n, 128]⟩ ![B, 128] i1 b1).emb y))
        (fun y => whp ((blkRect ⟨2, ![128, 64]⟩ ![128, 64] i4 b4).emb y)) (fun y => whu ((blkRect ⟨2, ![64, 64]⟩ ![64, 64] i5 b5).emb y))
        (fun y => bh ((blkRect ⟨1, ![64]⟩ ![64] i6 b6).emb y))
      = fun y => table h x wu bu whp whu bh ((blkRect ⟨2, ![n, 64]⟩ ![B, 64] i7 b7).emb y) :=
  funext_ix2 fun p q => (hpay _ _ _ _ _ _ _ p q).trans (by
    have hB : i7 0 * B + B ≤ n := b7 0
    have hr : T * B + p.val < n := by have := p.isLt; rw [e7.1] at hB; omega
    rw [emb_rows e7 b7 p q ⟨_, hr⟩ rfl]
    simp only [emb_rows e0 b0 p _ ⟨_, hr⟩ rfl, emb_rows e1 b1 p _ ⟨_, hr⟩ rfl, emb_zero (s := ⟨2, ![32, 64]⟩) e2,
      emb_zero (s := ⟨1, ![64]⟩) e3, emb_zero (s := ⟨2, ![128, 64]⟩) e4, emb_zero (s := ⟨2, ![64, 64]⟩) e5, emb_zero (s := ⟨1, ![64]⟩) e6]
    rfl)

end Cert.KernelIdeal.Val

end
-- ==== Proof.KerArr0.lean ====
import proofs.«426877_j670014898785_2_alg».proof.Proof.Gen.KernelIdeal.Frame
import proofs.«426877_j670014898785_2_alg».proof.Proof.KerBody0
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r0 : ∀ t : Fin cfg0.N, RowAt (win0_0.index t) t.val ∧ ZeroAt (win0_1.index t) ∧ ZeroAt (win0_2.index t)
    ∧ RowAt (win0_3.index t) t.val :=
  (by decide +kernel : ∀ t : Fin grid0.N, _)

theorem arr0 (c : Dev nD) (r : Fin 2097152) (j : Fin 64) :
    ((Gen.dat0 (F := Ideal) V c).arrAt 3 cfg0.N) (ix2 r j)
      = Cert.Tree.fcU (fun i => (V c main_arg8 : FVec Ideal S2097152x32 .f32) (ix2 r i))
          (fun i j' => (V c main_arg17 : FVec Ideal S32x64 .f32) (ix2 i j')) (fun j' => (V c main_arg18 : FVec Ideal S64 .f32) (ix1 j')) j := by
  refine congrFun ((Gen.dat0 (F := Ideal) V c).arrAt_eq_of_cover 3 (leafTable (n := 2097152) (V c main_arg8) (V c main_arg17)
    (V c main_arg18)) (fun t _ => ?_) fun i => ?_) (ix2 r j)
  · obtain ⟨e0, e1, e2, e3⟩ := idx_facts_r0 t
    rw [Dat.flushed, after0_3, out0_3, canon2, ld2, ld2, ld1]
    exact leaf_rows (B := 16384) e0 e1 e2 e3 _ _ _ _ _ _ _ (Gen.k0_pay1 (F := Ideal)) pay0_apply
  · exact (cover_rows (n := 2097152) (B := 16384) (fun t => (idx_facts_r0 t).2.2.2) (congrArg (· * 16384) N_0) _ i).elim
      fun t h => ⟨t, flush0_3 t, mem_set_of_emb _ h⟩

end Cert.KernelIdeal.Val

end
-- ==== Proof.KerBody1.lean ====
import proofs.«426877_j670014898785_2_alg».proof.Proof.Gen.KernelIdeal.Skeleton
import proofs.«426877_j670014898785_2_alg».proof.Proof.Spec
import proofs.«426877_j670014898785_2_alg».proof.Proof.LibMatmul

noncomputable section

namespace Cert.KernelIdeal.Val

open Idealize.ShloMosaic Idealize.ShloMosaic.ValueIdx Cert.KernelIdeal Cert.LibMatmul

variable (v0 : Vec Ideal S16384x32 .f32) (v1 : Vec Ideal S32x64 .f32) (v3 : Vec Ideal S64 .f32) (v9 : Vec Ideal S16384x128 .f32) (v11 : Vec Ideal S128x64 .f32) (v14 : Vec Ideal S64x64 .f32) (v18 : Vec Ideal S64 .f32) (r : Fin 16384) (c : Fin 64)

/-- An inner body stores `relu((hp · Whp + u · Whu) + bh)` with `u = relu(x · Wu + bu)`. -/
theorem pay1_apply :
    Gen.k1_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c := by
  unfold Gen.k1_pay1
  rw [shapeCast_self, shapeCast_self, shapeCast_self]
  exact relu_affine2_apply v9 v11 v18 _ _ r c _ v14 _ fun q => relu_affine_apply v0 v1 v3 _ _ r q

theorem pay2_apply :
    Gen.k2_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c :=
  pay1_apply v0 v1 v3 v9 v11 v14 v18 r c

theorem pay3_apply :
    Gen.k3_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c :=
  pay1_apply v0 v1 v3 v9 v11 v14 v18 r c

theorem pay4_apply :
    Gen.k4_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c :=
  pay1_apply v0 v1 v3 v9 v11 v14 v18 r c

theorem pay5_apply :
    Gen.k5_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c :=
  pay1_apply v0 v1 v3 v9 v11 v14 v18 r c

theorem pay6_apply :
    Gen.k6_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c :=
  pay1_apply v0 v1 v3 v9 v11 v14 v18 r c

theorem pay7_apply :
    Gen.k7_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c :=
  pay1_apply v0 v1 v3 v9 v11 v14 v18 r c

end Cert.KernelIdeal.Val

end
-- ==== Proof.KerArr1.lean ====
import proofs.«426877_j670014898785_2_alg».proof.Proof.Gen.KernelIdeal.Frame
import proofs.«426877_j670014898785_2_alg».proof.Proof.KerBody1
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r1 : ∀ t : Fin cfg1.N, RowAt (win1_0.index t) t.val ∧ RowAt (win1_1.index t) t.val ∧ ZeroAt (win1_2.index t)
    ∧ ZeroAt (win1_3.index t) ∧ ZeroAt (win1_4.index t) ∧ ZeroAt (win1_5.index t) ∧ ZeroAt (win1_6.index t)
    ∧ RowAt (win1_7.index t) t.val :=
  (by decide +kernel : ∀ t : Fin grid1.N, _)

theorem arr1 (c : Dev nD) (r : Fin 1048576) (j : Fin 64) :
    ((Gen.dat1 (F := Ideal) V c).arrAt 7 cfg1.N) (ix2 r j)
      = Cert.Tree.fcSplit (fun q => (V c main_v4 : FVec Ideal S1048576x128 .f32) (ix2 r q))
          (Cert.Tree.fcU (fun i => (V c main_arg7 : FVec Ideal S1048576x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat1 (F := Ideal) V c).arrAt_eq_of_cover 7 (table (n := 1048576) (V c main_v4) (V c main_arg7) (V c main_arg17)
    (V c main_arg18) (V c main_v0) (V c main_v1) (V c main_arg20)) (fun t _ => ?_) fun i => ?_) (ix2 r j)
  · obtain ⟨e0, e1, e2, e3, e4, e5, e6, e7⟩ := idx_facts_r1 t
    rw [Dat.flushed, after1_7, out1_7, canon2, ld2, ld2, ld2, ld2, ld2, ld1, ld1]
    exact table_rows (B := 16384) e0 e1 e2 e3 e4 e5 e6 e7 _ _ _ _ _ _ _ _ _ _ _ _ _ _ _ (Gen.k1_pay1 (F := Ideal)) pay1_apply
  · exact (cover_rows (n := 1048576) (B := 16384) (fun t => (idx_facts_r1 t).2.2.2.2.2.2.2) (congrArg (· * 16384) N_1) _ i).elim
      fun t h => ⟨t, flush1_7 t, mem_set_of_emb _ h⟩

end Cert.KernelIdeal.Val

end
-- ==== Proof.KerArr2.lean ====
import proofs.«426877_j670014898785_2_alg».proof.Proof.Gen.KernelIdeal.Frame
import proofs.«426877_j670014898785_2_alg».proof.Proof.KerBody1
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r2 : ∀ t : Fin cfg2.N, RowAt (win2_0.index t) t.val ∧ RowAt (win2_1.index t) t.val ∧ ZeroAt (win2_2.index t)
    ∧ ZeroAt (win2_3.index t) ∧ ZeroAt (win2_4.index t) ∧ ZeroAt (win2_5.index t) ∧ ZeroAt (win2_6.index t)
    ∧ RowAt (win2_7.index t) t.val :=
  (by decide +kernel : ∀ t : Fin grid2.N, _)

theorem arr2 (c : Dev nD) (r : Fin 524288) (j : Fin 64) :
    ((Gen.dat2 (F := Ideal) V c).arrAt 7 cfg2.N) (ix2 r j)
      = Cert.Tree.fcSplit (fun q => (V c main_v7 : FVec Ideal S524288x128 .f32) (ix2 r q))
          (Cert.Tree.fcU (fun i => (V c main_arg6 : FVec Ideal S524288x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat2 (F := Ideal) V c).arrAt_eq_of_cover 7 (table (n := 524288) (V c main_v7) (V c main_arg6) (V c main_arg17)
    (V c main_arg18) (V c main_v0) (V c main_v1) (V c main_arg20)) (fun t _ => ?_) fun i => ?_) (ix2 r j)
  · obtain ⟨e0, e1, e2, e3, e4, e5, e6, e7⟩ := idx_facts_r2 t
    rw [Dat.flushed, after2_7, out2_7, canon2, ld2, ld2, ld2, ld2, ld2, ld1, ld1]
    exact table_rows (B := 16384) e0 e1 e2 e3 e4 e5 e6 e7 _ _ _ _ _ _ _ _ _ _ _ _ _ _ _ (Gen.k2_pay1 (F := Ideal)) pay2_apply
  · exact (cover_rows (n := 524288) (B := 16384) (fun t => (idx_facts_r2 t).2.2.2.2.2.2.2) (congrArg (· * 16384) N_2) _ i).elim
      fun t h => ⟨t, flush2_7 t, mem_set_of_emb _ h⟩

end Cert.KernelIdeal.Val

end
-- ==== Proof.KerArr3.lean ====
import proofs.«426877_j670014898785_2_alg».proof.Proof.Gen.KernelIdeal.Frame
import proofs.«426877_j670014898785_2_alg».proof.Proof.KerBody1
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r3 : ∀ t : Fin cfg3.N, RowAt (win3_0.index t) t.val ∧ RowAt (win3_1.index t) t.val ∧ ZeroAt (win3_2.index t)
    ∧ ZeroAt (win3_3.index t) ∧ ZeroAt (win3_4.index t) ∧ ZeroAt (win3_5.index t) ∧ ZeroAt (win3_6.index t)
    ∧ RowAt (win3_7.index t) t.val :=
  (by decide +kernel : ∀ t : Fin grid3.N, _)

theorem arr3 (c : Dev nD) (r : Fin 262144) (j : Fin 64) :
    ((Gen.dat3 (F := Ideal) V c).arrAt 7 cfg3.N) (ix2 r j)
      = Cert.Tree.fcSplit (fun q => (V c main_v10 : FVec Ideal S262144x128 .f32) (ix2 r q))
          (Cert.Tree.fcU (fun i => (V c main_arg5 : FVec Ideal S262144x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat3 (F := Ideal) V c).arrAt_eq_of_cover 7 (table (n := 262144) (V c main_v10) (V c main_arg5) (V c main_arg17)
    (V c main_arg18) (V c main_v0) (V c main_v1) (V c main_arg20)) (fun t _ => ?_) fun i => ?_) (ix2 r j)
  · obtain ⟨e0, e1, e2, e3, e4, e5, e6, e7⟩ := idx_facts_r3 t
    rw [Dat.flushed, after3_7, out3_7, canon2, ld2, ld2, ld2, ld2, ld2, ld1, ld1]
    exact table_rows (B := 16384) e0 e1 e2 e3 e4 e5 e6 e7 _ _ _ _ _ _ _ _ _ _ _ _ _ _ _ (Gen.k3_pay1 (F := Ideal)) pay3_apply
  · exact (cover_rows (n := 262144) (B := 16384) (fun t => (idx_facts_r3 t).2.2.2.2.2.2.2) (congrArg (· * 16384) N_3) _ i).elim
      fun t h => ⟨t, flush3_7 t, mem_set_of_emb _ h⟩

end Cert.KernelIdeal.Val

end
-- ==== Proof.KerArr4.lean ====
import proofs.«426877_j670014898785_2_alg».proof.Proof.Gen.KernelIdeal.Frame
import proofs.«426877_j670014898785_2_alg».proof.Proof.KerBody1
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r4 : ∀ t : Fin cfg4.N, RowAt (win4_0.index t) t.val ∧ RowAt (win4_1.index t) t.val ∧ ZeroAt (win4_2.index t)
    ∧ ZeroAt (win4_3.index t) ∧ ZeroAt (win4_4.index t) ∧ ZeroAt (win4_5.index t) ∧ ZeroAt (win4_6.index t)
    ∧ RowAt (win4_7.index t) t.val :=
  (by decide +kernel : ∀ t : Fin grid4.N, _)

theorem arr4 (c : Dev nD) (r : Fin 131072) (j : Fin 64) :
    ((Gen.dat4 (F := Ideal) V c).arrAt 7 cfg4.N) (ix2 r j)
      = Cert.Tree.fcSplit (fun q => (V c main_v13 : FVec Ideal S131072x128 .f32) (ix2 r q))
          (Cert.Tree.fcU (fun i => (V c main_arg4 : FVec Ideal S131072x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat4 (F := Ideal) V c).arrAt_eq_of_cover 7 (table (n := 131072) (V c main_v13) (V c main_arg4) (V c main_arg17)
    (V c main_arg18) (V c main_v0) (V c main_v1) (V c main_arg20)) (fun t _ => ?_) fun i => ?_) (ix2 r j)
  · obtain ⟨e0, e1, e2, e3, e4, e5, e6, e7⟩ := idx_facts_r4 t
    rw [Dat.flushed, after4_7, out4_7, canon2, ld2, ld2, ld2, ld2, ld2, ld1, ld1]
    exact table_rows (B := 16384) e0 e1 e2 e3 e4 e5 e6 e7 _ _ _ _ _ _ _ _ _ _ _ _ _ _ _ (Gen.k4_pay1 (F := Ideal)) pay4_apply
  · exact (cover_rows (n := 131072) (B := 16384) (fun t => (idx_facts_r4 t).2.2.2.2.2.2.2) (congrArg (· * 16384) N_4) _ i).elim
      fun t h => ⟨t, flush4_7 t, mem_set_of_emb _ h⟩

end Cert.KernelIdeal.Val

end
-- ==== Proof.KerArr5.lean ====
import proofs.«426877_j670014898785_2_alg».proof.Proof.Gen.KernelIdeal.Frame
import proofs.«426877_j670014898785_2_alg».proof.Proof.KerBody1
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r5 : ∀ t : Fin cfg5.N, RowAt (win5_0.index t) t.val ∧ RowAt (win5_1.index t) t.val ∧ ZeroAt (win5_2.index t)
    ∧ ZeroAt (win5_3.index t) ∧ ZeroAt (win5_4.index t) ∧ ZeroAt (win5_5.index t) ∧ ZeroAt (win5_6.index t)
    ∧ RowAt (win5_7.index t) t.val :=
  (by decide +kernel : ∀ t : Fin grid5.N, _)

theorem arr5 (c : Dev nD) (r : Fin 65536) (j : Fin 64) :
    ((Gen.dat5 (F := Ideal) V c).arrAt 7 cfg5.N) (ix2 r j)
      = Cert.Tree.fcSplit (fun q => (V c main_v16 : FVec Ideal S65536x128 .f32) (ix2 r q))
          (Cert.Tree.fcU (fun i => (V c main_arg3 : FVec Ideal S65536x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat5 (F := Ideal) V c).arrAt_eq_of_cover 7 (table (n := 65536) (V c main_v16) (V c main_arg3) (V c main_arg17)
    (V c main_arg18) (V c main_v0) (V c main_v1) (V c main_arg20)) (fun t _ => ?_) fun i => ?_) (ix2 r j)
  · obtain ⟨e0, e1, e2, e3, e4, e5, e6, e7⟩ := idx_facts_r5 t
    rw [Dat.flushed, after5_7, out5_7, canon2, ld2, ld2, ld2, ld2, ld2, ld1, ld1]
    exact table_rows (B := 16384) e0 e1 e2 e3 e4 e5 e6 e7 _ _ _ _ _ _ _ _ _ _ _ _ _ _ _ (Gen.k5_pay1 (F := Ideal)) pay5_apply
  · exact (cover_rows (n := 65536) (B := 16384) (fun t => (idx_facts_r5 t).2.2.2.2.2.2.2) (congrArg (· * 16384) N_5) _ i).elim
      fun t h => ⟨t, flush5_7 t, mem_set_of_emb _ h⟩

end Cert.KernelIdeal.Val

end
-- ==== Proof.KerArr6.lean ====
import proofs.«426877_j670014898785_2_alg».proof.Proof.Gen.KernelIdeal.Frame
import proofs.«426877_j670014898785_2_alg».proof.Proof.KerBody1
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r6 : ∀ t : Fin cfg6.N, RowAt (win6_0.index t) t.val ∧ RowAt (win6_1.index t) t.val ∧ ZeroAt (win6_2.index t)
    ∧ ZeroAt (win6_3.index t) ∧ ZeroAt (win6_4.index t) ∧ ZeroAt (win6_5.index t) ∧ ZeroAt (win6_6.index t)
    ∧ RowAt (win6_7.index t) t.val :=
  (by decide +kernel : ∀ t : Fin grid6.N, _)

theorem arr6 (c : Dev nD) (r : Fin 32768) (j : Fin 64) :
    ((Gen.dat6 (F := Ideal) V c).arrAt 7 cfg6.N) (ix2 r j)
      = Cert.Tree.fcSplit (fun q => (V c main_v19 : FVec Ideal S32768x128 .f32) (ix2 r q))
          (Cert.Tree.fcU (fun i => (V c main_arg2 : FVec Ideal S32768x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat6 (F := Ideal) V c).arrAt_eq_of_cover 7 (table (n := 32768) (V c main_v19) (V c main_arg2) (V c main_arg17)
    (V c main_arg18) (V c main_v0) (V c main_v1) (V c main_arg20)) (fun t _ => ?_) fun i => ?_) (ix2 r j)
  · obtain ⟨e0, e1, e2, e3, e4, e5, e6, e7⟩ := idx_facts_r6 t
    rw [Dat.flushed, after6_7, out6_7, canon2, ld2, ld2, ld2, ld2, ld2, ld1, ld1]
    exact table_rows (B := 16384) e0 e1 e2 e3 e4 e5 e6 e7 _ _ _ _ _ _ _ _ _ _ _ _ _ _ _ (Gen.k6_pay1 (F := Ideal)) pay6_apply
  · exact (cover_rows (n := 32768) (B := 16384) (fun t => (idx_facts_r6 t).2.2.2.2.2.2.2) (congrArg (· * 16384) N_6) _ i).elim
      fun t h => ⟨t, flush6_7 t, mem_set_of_emb _ h⟩

end Cert.KernelIdeal.Val

end
-- ==== Proof.KerArr7.lean ====
import proofs.«426877_j670014898785_2_alg».proof.Proof.Gen.KernelIdeal.Frame
import proofs.«426877_j670014898785_2_alg».proof.Proof.KerBody1
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r7 : ∀ t : Fin cfg7.N, RowAt (win7_0.index t) t.val ∧ RowAt (win7_1.index t) t.val ∧ ZeroAt (win7_2.index t)
    ∧ ZeroAt (win7_3.index t) ∧ ZeroAt (win7_4.index t) ∧ ZeroAt (win7_5.index t) ∧ ZeroAt (win7_6.index t)
    ∧ RowAt (win7_7.index t) t.val :=
  (by decide +kernel : ∀ t : Fin grid7.N, _)

theorem arr7 (c : Dev nD) (r : Fin 16384) (j : Fin 64) :
    ((Gen.dat7 (F := Ideal) V c).arrAt 7 cfg7.N) (ix2 r j)
      = Cert.Tree.fcSplit (fun q => (V c main_v22 : FVec Ideal S16384x128 .f32) (ix2 r q))
          (Cert.Tree.fcU (fun i => (V c main_arg1 : FVec Ideal S16384x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat7 (F := Ideal) V c).arrAt_eq_of_cover 7 (table (n := 16384) (V c main_v22) (V c main_arg1) (V c main_arg17)
    (V c main_arg18) (V c main_v0) (V c main_v1) (V c main_arg20)) (fun t _ => ?_) fun i => ?_) (ix2 r j)
  · obtain ⟨e0, e1, e2, e3, e4, e5, e6, e7⟩ := idx_facts_r7 t
    rw [Dat.flushed, after7_7, out7_7, canon2, ld2, ld2, ld2, ld2, ld2, ld1, ld1]
    exact table_rows (B := 16384) e0 e1 e2 e3 e4 e5 e6 e7 _ _ _ _ _ _ _ _ _ _ _ _ _ _ _ (Gen.k7_pay1 (F := Ideal)) pay7_apply
  · exact (cover_rows (n := 16384) (B := 16384) (fun t => (idx_facts_r7 t).2.2.2.2.2.2.2) (congrArg (· * 16384) N_7) _ i).elim
      fun t h => ⟨t, flush7_7 t, mem_set_of_emb _ h⟩

end Cert.KernelIdeal.Val

end
-- ==== Proof.KerBody8.lean ====
import proofs.«426877_j670014898785_2_alg».proof.Proof.Gen.KernelIdeal.Skeleton
import proofs.«426877_j670014898785_2_alg».proof.Proof.Spec
import proofs.«426877_j670014898785_2_alg».proof.Proof.LibMatmul

noncomputable section

namespace Cert.KernelIdeal.Val

open Idealize.ShloMosaic Idealize.ShloMosaic.ValueIdx Cert.KernelIdeal Cert.LibMatmul

/-- The last inner body, a block of 8192 rows, stores the same value. -/
theorem pay8_apply (v0 : Vec Ideal S8192x32 .f32) (v1 : Vec Ideal S32x64 .f32) (v3 : Vec Ideal S64 .f32) (v9 : Vec Ideal S8192x128 .f32) (v11 : Vec Ideal S128x64 .f32) (v14 : Vec Ideal S64x64 .f32) (v18 : Vec Ideal S64 .f32) (r : Fin 8192) (c : Fin 64) :
    Gen.k8_pay1 (F := Ideal) v0 v1 v3 v9 v11 v14 v18 (ix2 r c)
      = Cert.Tree.fcSplit (fun q => v9 (ix2 r q)) (Cert.Tree.fcU (fun i => v0 (ix2 r i)) (fun i j => v1 (ix2 i j)) (fun j => v3 (ix1 j))) (fun q j => v11 (ix2 q j)) (fun q j => v14 (ix2 q j)) (fun j => v18 (ix1 j)) c := by
  unfold Gen.k8_pay1
  rw [shapeCast_self, shapeCast_self, shapeCast_self]
  exact relu_affine2_apply v9 v11 v18 _ _ r c _ v14 _ fun q => relu_affine_apply v0 v1 v3 _ _ r q

end Cert.KernelIdeal.Val

end
-- ==== Proof.KerArr8.lean ====
import proofs.«426877_j670014898785_2_alg».proof.Proof.Gen.KernelIdeal.Frame
import proofs.«426877_j670014898785_2_alg».proof.Proof.KerBody8
import proofs.«426877_j670014898785_2_alg».proof.Proof.KerArrLib

noncomputable section

namespace Cert.KernelIdeal.Val

open Idealize.ShloMosaic Idealize.ShloMosaic.ValueIdx Cert.KernelIdeal Cert.KernelIdeal.Gen
open Idealize.ShloMosaic.TcCoe
open Idealize.ShloMosaic.Pipeline (Dat)

variable (V : (c : Dev nD) → (b : Ref sig .tc) → Buf (Elt Ideal) ((c : Thread nD τ).loc b))

theorem idx_facts_r8 : ∀ t : Fin cfg8.N, RowAt (win8_0.index t) t.val ∧ RowAt (win8_1.index t) t.val ∧ ZeroAt (win8_2.index t)
    ∧ ZeroAt (win8_3.index t) ∧ ZeroAt (win8_4.index t) ∧ ZeroAt (win8_5.index t) ∧ ZeroAt (win8_6.index t)
    ∧ RowAt (win8_7.index t) t.val :=
  (by decide +kernel : ∀ t : Fin grid8.N, _)

theorem arr8 (c : Dev nD) (r : Fin 8192) (j : Fin 64) :
    ((Gen.dat8 (F := Ideal) V c).arrAt 7 cfg8.N) (ix2 r j)
      = Cert.Tree.fcSplit (fun q => (V c main_v25 : FVec Ideal S8192x128 .f32) (ix2 r q))
          (Cert.Tree.fcU (fun i => (V c main_arg0 : FVec Ideal S8192x32 .f32) (ix2 r i))
            (fun i j' => (V c main_arg17 : FVec Ideal S32x64 .f32) (ix2 i j')) (fun j' => (V c main_arg18 : FVec Ideal S64 .f32) (ix1 j')))
          (fun q j' => (V c main_v0 : FVec Ideal S128x64 .f32) (ix2 q j')) (fun q j' => (V c main_v1 : FVec Ideal S64x64 .f32) (ix2 q j'))
          (fun j' => (V c main_arg20 : FVec Ideal S64 .f32) (ix1 j')) j := by
  refine congrFun ((Gen.dat8 (F := Ideal) V c).arrAt_eq_of_cover 7 (table (n := 8192) (V c main_v25) (V c main_arg0) (V c main_arg17)
    (V c main_arg18) (V c main_v0) (V c main_v1) (V c main_arg20)) (fun t _ => ?_) fun i => ?_) (ix2 r j)
  · obtain ⟨e0, e1, e2, e3, e4, e5, e6, e7⟩ := idx_facts_r8 t
    rw [Dat.flushed, after8_7, out8_7, canon2, ld2, ld2, ld2, ld2, ld2, ld1, ld1]
    exact table_rows (B := 8192) e0 e1 e2 e3 e4 e5 e6 e7 _ _ _ _ _ _ _ _ _ _ _ _ _ _ _ (Gen.k8_pay1 (F := Ideal)) pay8_apply
  · exact (cover_rows (n := 8192) (B := 8192) (fun t => (idx_facts_r8 t).2.2.2.2.2.2.2) (congrArg (· * 8192) N_8) _ i).elim
      fun t h => ⟨t, flush8_7 t, mem_set_of_emb _ h⟩

end Cert.KernelIdeal.Val

end
-- ==== Proof.LibTake.lean ====
import Idealize.ShloMosaic.PureOps.Reduce
import Idealize.ShloMosaic.Lib.Pipeline.Value
import Idealize.ShloMosaic.Lib.StableHlo
import proofs.«426877_j670014898785_2_alg».proof.Proof.Spec

namespace Cert.Take

open Idealize.ShloMosaic Idealize.ShloMosaic.ValueIdx

theorem ofBuf_toBuf {sig : RefSig} {Val : EltTy → Type} {T : BufTy} (x : StableHlo.TRef sig T) (v : T.Contents Val) :
    x.ofBuf (x.toBuf v) = v := by
  obtain ⟨r, rfl, _, _⟩ := x
  rfl

theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

-- Over a unit last axis only the entry at (r, s, 0) reduces into (r, s).
theorem reduce_andi_unit_last {n p : Nat} {u : Shape} (x : (⟨3, ![n, p, 1]⟩ : Shape).Idx → BitVec 1) (init : u.Idx → BitVec 1)
    (h : (⟨3, ![n, p, 1]⟩ : Shape).ReducesTo [2] ⟨2, ![n, p]⟩) (hu : 0 < u.numel) (r : Fin n) (s : Fin p)
    (hinit : init (Shape.Idx.first hu) = 1#1) (hx : x (ix3 r s (0 : Fin 1)) = 1#1) :
    Host.reduce IntOp.andi x init h hu (ix2 r s) = 1#1 := by
  rw [Host.reduce_eq_foldl, hinit]
  refine foldl_andi_one x _ fun i hi => ?_
  rw [List.mem_filter] at hi
  have hd : h.drop i = ix2 r s := by simpa using hi.2
  have e0 : i 0 = r := Fin.ext (congrArg (fun k => (k 0).val) hd)
  have e1 : i 1 = s := Fin.ext (congrArg (fun k => (k 1).val) hd)
  have e2 : i 2 = (0 : Fin 1) := Fin.ext (by have : (i 2).val < 1 := (i 2).isLt; show (i 2).val = 0; omega)
  rw [eq_ix3 i, e0, e1, e2]
  exact hx

theorem val_eq_ite {k : Nat} (v : Fin k) : v.val = if k = 1 then 0 else v.val := by
  have := v.isLt
  split <;> omega

theorem bcast_pairs_apply {α : Type} {n p c : Nat} (h : (⟨2, ![n, p]⟩ : Shape).BroadcastsInDim ⟨3, ![n, p, c]⟩ ![0, 1])
    (x : (⟨2, ![n, p]⟩ : Shape).Idx → α) (r : Fin n) (s : Fin p) (j : Fin c) :
    broadcastInDim ⟨3, ![n, p, c]⟩ ![0, 1] h x (ix3 r s j) = x (ix2 r s) := by
  refine broadcastInDim_apply _ h x _ _ fun a => ?_
  match a with
  | ⟨0, _⟩ => exact val_eq_ite r
  | ⟨1, _⟩ => exact val_eq_ite s

-- Row-major positions agree: (r * a + q / b) * b + q % b = r * (a * b) + q.
theorem reshape_pairs_apply {α : Type} {n a b c : Nat} (hc : c = a * b) (hb : 0 < b)
    (x : (⟨3, ![n, a, b]⟩ : Shape).Idx → α) (h : (⟨3, ![n, a, b]⟩ : Shape).ShapeCasts ⟨2, ![n, c]⟩) (r : Fin n) (q : Fin c) :
    shapeCast ⟨2, ![n, c]⟩ x h (ix2 r q)
      = x (ix3 r ⟨q.val / b, by subst hc; exact Nat.div_lt_of_lt_mul (lt_of_lt_of_eq q.isLt (Nat.mul_comm a b))⟩ ⟨q.val % b, Nat.mod_lt _ hb⟩) := by
  subst hc
  refine shapeCast_apply x h _ _ ?_
  rw [Shape.rowMajor_val_three, Shape.rowMajor_val_two]
  show (r.val * a + q.val / b) * b + q.val % b = r.val * (a * b) + q.val
  rw [Nat.add_mul, Nat.mul_assoc, Nat.add_assoc, Nat.div_add_mod']

-- The dimension numbers of a row gather: rows of an [N, C] table picked by an [M, P] array of row numbers.
abbrev rowDims {N C M P : Nat} (wf : GatherDims.WF ⟨2, ![N, C]⟩ ⟨3, ![M, P, 1]⟩ ⟨3, ![M, P, C]⟩ [2] [0] [] [0] [] 2 ![1, C]) :
    GatherDims ⟨2, ![N, C]⟩ ⟨3, ![M, P, 1]⟩ ⟨3, ![M, P, C]⟩ :=
  ⟨[2], [0], [], [], [0], 2, ![1, C], wf⟩

-- Such a gather reads column j of the row named by the start index, read signed and clamped into the table.
theorem gather_rows_apply {α : Type} {N C M P w : Nat}
    {wf : GatherDims.WF ⟨2, ![N, C]⟩ ⟨3, ![M, P, 1]⟩ ⟨3, ![M, P, C]⟩ [2] [0] [] [0] [] 2 ![1, C]}
    (x : (⟨2, ![N, C]⟩ : Shape).Idx → α) (idx : IVec ⟨3, ![M, P, 1]⟩ w) (e : Fin M) (s : Fin P) (j : Fin C) (hN : 0 < N) :
    Host.gather (rowDims wf) x idx (ix3 e s j)
      = x (ix2 ⟨min (idx (ix3 e s (0 : Fin 1))).toInt.toNat (N - 1), by omega⟩ j) := by
  unfold Host.gather
  refine congrArg x (funext fun a => Fin.ext ?_)
  match a with
  | ⟨0, _⟩ =>
    show GatherDims.start _ (ix3 e s j) idx 0 + GatherDims.batchCoord _ (ix3 e s j) 0 + GatherDims.offCoord _ (ix3 e s j) 0
      = min (idx (ix3 e s (0 : Fin 1))).toInt.toNat (N - 1)
    rw [GatherDims.batchCoord_eq_zero _ _ _ List.not_mem_nil,
      GatherDims.offCoord_eq_zero _ _ _ (by decide : (0 : Fin 2) ∉ (List.finRange 2).filter (· ∉ [0] ++ []))]
    simp only [Nat.add_zero]
    unfold GatherDims.start
    rw [dif_pos (List.mem_singleton.mpr rfl)]
    show min (idx _).toInt.toNat (N - 1) = _
    refine congrArg (fun k => min (idx k).toInt.toNat (N - 1)) (funext fun b => ?_)
    match b with
    | ⟨0, _⟩ => exact Fin.ext rfl
    | ⟨1, _⟩ => exact Fin.ext rfl
    | ⟨2, _⟩ => exact Fin.ext rfl
  | ⟨1, _⟩ =>
    show GatherDims.start _ (ix3 e s j) idx 1 + GatherDims.batchCoord _ (ix3 e s j) 1 + GatherDims.offCoord _ (ix3 e s j) 1
      = j.val
    rw [GatherDims.batchCoord_eq_zero _ _ _ List.not_mem_nil]
    simp only [Nat.add_zero]
    unfold GatherDims.start
    rw [dif_neg (by decide : (1 : Fin 2) ∉ [0]), Nat.zero_add]
    unfold GatherDims.offCoord
    exact (dif_pos (by decide : (1 : Fin 2) ∈ (List.finRange 2).filter (· ∉ [0] ++ []))).trans rfl

variable {F : FTy → Type} [FloatOps F] {n N : Nat} {mw ml : BitVec 32}
  {b0 : (⟨0, ![]⟩ : Shape).BroadcastsInDim ⟨2, ![n, 2]⟩ ![]}
  {b1 : (⟨2, ![n, 2]⟩ : Shape).BroadcastsInDim ⟨3, ![n, 2, 1]⟩ ![0, 1]}
  {b2 : (⟨0, ![]⟩ : Shape).BroadcastsInDim ⟨3, ![n, 2, 1]⟩ ![]}
  {b3 : (⟨3, ![1, 1, 1]⟩ : Shape).BroadcastsInDim ⟨3, ![n, 2, 1]⟩ ![0, 1, 2]}
  {b4 : (⟨1, ![1]⟩ : Shape).BroadcastsInDim ⟨3, ![1, 1, 1]⟩ ![2]}
  {hr : (⟨3, ![n, 2, 1]⟩ : Shape).ReducesTo [2] ⟨2, ![n, 2]⟩} {hu : 0 < (⟨0, ![]⟩ : Shape).numel}
  {wf : GatherDims.WF ⟨2, ![N, 64]⟩ ⟨3, ![n, 2, 1]⟩ ⟨3, ![n, 2, 64]⟩ [2] [0] [] [0] [] 2 ![1, 64]}
  {b5 : (⟨2, ![n, 2]⟩ : Shape).BroadcastsInDim ⟨3, ![n, 2, 64]⟩ ![0, 1]}
  {b6 : (⟨0, ![]⟩ : Shape).BroadcastsInDim ⟨3, ![n, 2, 64]⟩ ![]}
  {sc : (⟨3, ![n, 2, 64]⟩ : Shape).ShapeCasts ⟨2, ![n, 128]⟩} {hN : 0 < N}
  {ch : IVec ⟨2, ![n, 2]⟩ 32}

-- The gather's start indices: each child word, the table's row count added when it is negative, on a new unit axis.
abbrev starts (mw : BitVec 32) (ch : IVec ⟨2, ![n, 2]⟩ 32) : IVec ⟨3, ![n, 2, 1]⟩ 32 :=
  broadcastInDim (s := ⟨2, ![n, 2]⟩) _ ![0, 1] b1 (select (cmpi .slt ch (broadcastInDim (s := ⟨0, ![]⟩) _ ![] b0 (constantI _ 32 0#32)))
    (addi ch (broadcastInDim (s := ⟨0, ![]⟩) _ ![] b0 (constantI _ 32 mw))) ch)

-- The gathered rows where the start index passes the validity test, NaN elsewhere, as one whole-array term.
abbrev rows (mw ml : BitVec 32) (ch : IVec ⟨2, ![n, 2]⟩ 32) (tab : FVec F ⟨2, ![N, 64]⟩ .f32) : FVec F ⟨3, ![n, 2, 64]⟩ .f32 :=
  select (broadcastInDim (s := ⟨2, ![n, 2]⟩) _ ![0, 1] b5 (Host.reduce IntOp.andi
      (andi (cmpi .sge (starts (b0 := b0) (b1 := b1) mw ch) (broadcastInDim (s := ⟨0, ![]⟩) _ ![] b2 (constantI _ 32 0#32)))
        (cmpi .sle (starts (b0 := b0) (b1 := b1) mw ch)
          (broadcastInDim (s := ⟨3, ![1, 1, 1]⟩) _ ![0, 1, 2] b3 (broadcastInDim (s := ⟨1, ![1]⟩) _ ![2] b4 (constantI _ 32 ml)))))
      (constantI _ 1 1#1) hr hu))
    (Host.gather (rowDims wf) tab (starts (b0 := b0) (b1 := b1) mw ch))
    (broadcastInDim (s := ⟨0, ![]⟩) _ ![] b6 (constant (F := F) _ .f32 0x7FC00000#32))

-- With every child word in range the validity test passes, so entry (r, s, j) is column j of the row of child s.
theorem rows_apply (tab : FVec F ⟨2, ![N, 64]⟩ .f32) (hml : ml.toInt + 1 = mw.toInt) (hok : Cert.Tree.ChildrenOk mw ch)
    (r : Fin n) (s : Fin 2) (j : Fin 64) :
    rows (b0 := b0) (b1 := b1) (b2 := b2) (b3 := b3) (b4 := b4) (hr := hr) (hu := hu) (wf := wf) (b5 := b5) (b6 := b6)
      mw ml ch tab (ix3 r s j) = tab (ix2 (Cert.Tree.childRow N hN mw (ch (ix2 r s))) j) := by
  have hw : starts (b0 := b0) (b1 := b1) mw ch (ix3 r s 0) = Cert.Tree.wrapWord mw (ch (ix2 r s)) :=
    bcast_pairs_apply b1 _ r s 0
  unfold rows
  rw [select_apply, bcast_pairs_apply b5, reduce_andi_unit_last _ (constantI _ 1 1#1) hr hu r s rfl, select_one,
    gather_rows_apply _ _ r s j hN]
  · exact congrArg (fun k => tab (ix2 k j)) (Fin.ext (congrArg (fun v => min v.toInt.toNat (N - 1)) hw))
  · show IntOp.andi (IntOp.cmpi .sge (starts (b0 := b0) (b1 := b1) mw ch (ix3 r s 0)) 0#32)
      (IntOp.cmpi .sle (starts (b0 := b0) (b1 := b1) mw ch (ix3 r s 0)) ml) = 1#1
    rw [hw]
    exact Cert.Tree.valid_of_inRange hml (hok r s)

-- Regrouped as [n, 128], row r is the two children's rows side by side.
theorem pairs_apply {tab : FVec Ideal ⟨2, ![N, 64]⟩ .f32} (hml : ml.toInt + 1 = mw.toInt) (hok : Cert.Tree.ChildrenOk mw ch)
    (r : Fin n) (q : Fin 128) :
    shapeCast ⟨2, ![n, 128]⟩ (rows (b0 := b0) (b1 := b1) (b2 := b2) (b3 := b3) (b4 := b4) (hr := hr) (hu := hu) (wf := wf)
        (b5 := b5) (b6 := b6) mw ml ch tab) sc (ix2 r q)
      = Cert.Tree.hpair (fun j => tab (ix2 (Cert.Tree.childRow N hN mw (ch (ix2 r 0))) j))
          (fun j => tab (ix2 (Cert.Tree.childRow N hN mw (ch (ix2 r 1))) j)) q := by
  refine ((reshape_pairs_apply (a := 2) (b := 64) (c := 128) rfl (by decide) _ sc r q).trans (rows_apply (hN := hN) tab hml hok r _ _)).trans ?_
  unfold Cert.Tree.hpair
  by_cases h : q.val < 64
  · rw [dif_pos h]
    exact congrArg₂ (fun s j => tab (ix2 (Cert.Tree.childRow N hN mw (ch (ix2 r s))) j))
      (Fin.ext (Nat.div_eq_of_lt h)) (Fin.ext (Nat.mod_eq_of_lt h))
  · rw [dif_neg h]
    exact congrArg₂ (fun s j => tab (ix2 (Cert.Tree.childRow N hN mw (ch (ix2 r s))) j))
      (Fin.ext (by show q.val / 64 = 1; omega)) (Fin.ext (by show q.val % 64 = q.val - 64; omega))

end Cert.Take
-- ==== Proof.KerHost1.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

-- With every child word in range, row r of the pairs array is the rows of node r's two children side by side.
theorem host1_pairs (c : Dev nD)
    (hok : Cert.Tree.ChildrenOk 2097152#32 (W2 m ρ c (Proc.devRef .tc main_arg16) : IVec S1048576x2 32))
    (r : Fin 1048576) (q : Fin 128) :
    (W4 m ρ c (Proc.devRef .tc main_v4) : FVec Ideal S1048576x128 .f32) (ix2 r q)
      = Cert.Tree.hpair
          (fun j => (W2 m ρ c (Proc.devRef .tc main_v2) : FVec Ideal S2097152x64 .f32)
            (ix2 (Cert.Tree.childRow 2097152 (by decide) 2097152#32 ((W2 m ρ c (Proc.devRef .tc main_arg16) : IVec S1048576x2 32) (ix2 r 0))) j))
          (fun j => (W2 m ρ c (Proc.devRef .tc main_v2) : FVec Ideal S2097152x64 .f32)
            (ix2 (Cert.Tree.childRow 2097152 (by decide) 2097152#32 ((W2 m ρ c (Proc.devRef .tc main_arg16) : IVec S1048576x2 32) (ix2 r 1))) j)) q := by
  after_results_simp
  simp only [Cert.Take.ofBuf_toBuf]
  dsimp only [main_v3]
  simp only [cast_eq]
  exact Cert.Take.pairs_apply (by decide) hok r q

end Cert.KernelIdeal.Val
-- ==== Proof.KerHost2.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

theorem host2_pairs (c : Dev nD)
    (hok : Cert.Tree.ChildrenOk 1048576#32 (W5 m ρ c (Proc.devRef .tc main_arg15) : IVec S524288x2 32))
    (r : Fin 524288) (q : Fin 128) :
    (W7 m ρ c (Proc.devRef .tc main_v7) : FVec Ideal S524288x128 .f32) (ix2 r q)
      = Cert.Tree.hpair
          (fun j => (W5 m ρ c (Proc.devRef .tc main_v5) : FVec Ideal S1048576x64 .f32)
            (ix2 (Cert.Tree.childRow 1048576 (by decide) 1048576#32 ((W5 m ρ c (Proc.devRef .tc main_arg15) : IVec S524288x2 32) (ix2 r 0))) j))
          (fun j => (W5 m ρ c (Proc.devRef .tc main_v5) : FVec Ideal S1048576x64 .f32)
            (ix2 (Cert.Tree.childRow 1048576 (by decide) 1048576#32 ((W5 m ρ c (Proc.devRef .tc main_arg15) : IVec S524288x2 32) (ix2 r 1))) j)) q := by
  after_results_simp
  simp only [Cert.Take.ofBuf_toBuf]
  dsimp only [main_v6]
  simp only [cast_eq]
  exact Cert.Take.pairs_apply (by decide) hok r q

end Cert.KernelIdeal.Val
-- ==== Proof.KerHost3.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

theorem host3_pairs (c : Dev nD)
    (hok : Cert.Tree.ChildrenOk 524288#32 (W8 m ρ c (Proc.devRef .tc main_arg14) : IVec S262144x2 32))
    (r : Fin 262144) (q : Fin 128) :
    (W10 m ρ c (Proc.devRef .tc main_v10) : FVec Ideal S262144x128 .f32) (ix2 r q)
      = Cert.Tree.hpair
          (fun j => (W8 m ρ c (Proc.devRef .tc main_v8) : FVec Ideal S524288x64 .f32)
            (ix2 (Cert.Tree.childRow 524288 (by decide) 524288#32 ((W8 m ρ c (Proc.devRef .tc main_arg14) : IVec S262144x2 32) (ix2 r 0))) j))
          (fun j => (W8 m ρ c (Proc.devRef .tc main_v8) : FVec Ideal S524288x64 .f32)
            (ix2 (Cert.Tree.childRow 524288 (by decide) 524288#32 ((W8 m ρ c (Proc.devRef .tc main_arg14) : IVec S262144x2 32) (ix2 r 1))) j)) q := by
  after_results_simp
  simp only [Cert.Take.ofBuf_toBuf]
  dsimp only [main_v9]
  simp only [cast_eq]
  exact Cert.Take.pairs_apply (by decide) hok r q

end Cert.KernelIdeal.Val
-- ==== Proof.KerHost4.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

theorem host4_pairs (c : Dev nD)
    (hok : Cert.Tree.ChildrenOk 262144#32 (W11 m ρ c (Proc.devRef .tc main_arg13) : IVec S131072x2 32))
    (r : Fin 131072) (q : Fin 128) :
    (W13 m ρ c (Proc.devRef .tc main_v13) : FVec Ideal S131072x128 .f32) (ix2 r q)
      = Cert.Tree.hpair
          (fun j => (W11 m ρ c (Proc.devRef .tc main_v11) : FVec Ideal S262144x64 .f32)
            (ix2 (Cert.Tree.childRow 262144 (by decide) 262144#32 ((W11 m ρ c (Proc.devRef .tc main_arg13) : IVec S131072x2 32) (ix2 r 0))) j))
          (fun j => (W11 m ρ c (Proc.devRef .tc main_v11) : FVec Ideal S262144x64 .f32)
            (ix2 (Cert.Tree.childRow 262144 (by decide) 262144#32 ((W11 m ρ c (Proc.devRef .tc main_arg13) : IVec S131072x2 32) (ix2 r 1))) j)) q := by
  after_results_simp
  simp only [Cert.Take.ofBuf_toBuf]
  dsimp only [main_v12]
  simp only [cast_eq]
  exact Cert.Take.pairs_apply (by decide) hok r q

end Cert.KernelIdeal.Val
-- ==== Proof.KerHost5.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

theorem host5_pairs (c : Dev nD)
    (hok : Cert.Tree.ChildrenOk 131072#32 (W14 m ρ c (Proc.devRef .tc main_arg12) : IVec S65536x2 32))
    (r : Fin 65536) (q : Fin 128) :
    (W16 m ρ c (Proc.devRef .tc main_v16) : FVec Ideal S65536x128 .f32) (ix2 r q)
      = Cert.Tree.hpair
          (fun j => (W14 m ρ c (Proc.devRef .tc main_v14) : FVec Ideal S131072x64 .f32)
            (ix2 (Cert.Tree.childRow 131072 (by decide) 131072#32 ((W14 m ρ c (Proc.devRef .tc main_arg12) : IVec S65536x2 32) (ix2 r 0))) j))
          (fun j => (W14 m ρ c (Proc.devRef .tc main_v14) : FVec Ideal S131072x64 .f32)
            (ix2 (Cert.Tree.childRow 131072 (by decide) 131072#32 ((W14 m ρ c (Proc.devRef .tc main_arg12) : IVec S65536x2 32) (ix2 r 1))) j)) q := by
  after_results_simp
  simp only [Cert.Take.ofBuf_toBuf]
  dsimp only [main_v15]
  simp only [cast_eq]
  exact Cert.Take.pairs_apply (by decide) hok r q

end Cert.KernelIdeal.Val
-- ==== Proof.KerHost6.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

theorem host6_pairs (c : Dev nD)
    (hok : Cert.Tree.ChildrenOk 65536#32 (W17 m ρ c (Proc.devRef .tc main_arg11) : IVec S32768x2 32))
    (r : Fin 32768) (q : Fin 128) :
    (W19 m ρ c (Proc.devRef .tc main_v19) : FVec Ideal S32768x128 .f32) (ix2 r q)
      = Cert.Tree.hpair
          (fun j => (W17 m ρ c (Proc.devRef .tc main_v17) : FVec Ideal S65536x64 .f32)
            (ix2 (Cert.Tree.childRow 65536 (by decide) 65536#32 ((W17 m ρ c (Proc.devRef .tc main_arg11) : IVec S32768x2 32) (ix2 r 0))) j))
          (fun j => (W17 m ρ c (Proc.devRef .tc main_v17) : FVec Ideal S65536x64 .f32)
            (ix2 (Cert.Tree.childRow 65536 (by decide) 65536#32 ((W17 m ρ c (Proc.devRef .tc main_arg11) : IVec S32768x2 32) (ix2 r 1))) j)) q := by
  after_results_simp
  simp only [Cert.Take.ofBuf_toBuf]
  dsimp only [main_v18]
  simp only [cast_eq]
  exact Cert.Take.pairs_apply (by decide) hok r q

end Cert.KernelIdeal.Val
-- ==== Proof.KerHost7.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

theorem host7_pairs (c : Dev nD)
    (hok : Cert.Tree.ChildrenOk 32768#32 (W20 m ρ c (Proc.devRef .tc main_arg10) : IVec S16384x2 32))
    (r : Fin 16384) (q : Fin 128) :
    (W22 m ρ c (Proc.devRef .tc main_v22) : FVec Ideal S16384x128 .f32) (ix2 r q)
      = Cert.Tree.hpair
          (fun j => (W20 m ρ c (Proc.devRef .tc main_v20) : FVec Ideal S32768x64 .f32)
            (ix2 (Cert.Tree.childRow 32768 (by decide) 32768#32 ((W20 m ρ c (Proc.devRef .tc main_arg10) : IVec S16384x2 32) (ix2 r 0))) j))
          (fun j => (W20 m ρ c (Proc.devRef .tc main_v20) : FVec Ideal S32768x64 .f32)
            (ix2 (Cert.Tree.childRow 32768 (by decide) 32768#32 ((W20 m ρ c (Proc.devRef .tc main_arg10) : IVec S16384x2 32) (ix2 r 1))) j)) q := by
  after_results_simp
  simp only [Cert.Take.ofBuf_toBuf]
  dsimp only [main_v21]
  simp only [cast_eq]
  exact Cert.Take.pairs_apply (by decide) hok r q

end Cert.KernelIdeal.Val
-- ==== Proof.KerHost8.lean ====
import proofs.«426877_j670014898785_2_alg».proof.Proof.Gen.KernelIdeal.Frame
import proofs.«426877_j670014898785_2_alg».proof.Proof.LibTake

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

theorem host8_pairs (c : Dev nD)
    (hok : Cert.Tree.ChildrenOk 16384#32 (W23 m ρ c (Proc.devRef .tc main_arg9) : IVec S8192x2 32))
    (r : Fin 8192) (q : Fin 128) :
    (W25 m ρ c (Proc.devRef .tc main_v25) : FVec Ideal S8192x128 .f32) (ix2 r q)
      = Cert.Tree.hpair
          (fun j => (W23 m ρ c (Proc.devRef .tc main_v23) : FVec Ideal S16384x64 .f32)
            (ix2 (Cert.Tree.childRow 16384 (by decide) 16384#32 ((W23 m ρ c (Proc.devRef .tc main_arg9) : IVec S8192x2 32) (ix2 r 0))) j))
          (fun j => (W23 m ρ c (Proc.devRef .tc main_v23) : FVec Ideal S16384x64 .f32)
            (ix2 (Cert.Tree.childRow 16384 (by decide) 16384#32 ((W23 m ρ c (Proc.devRef .tc main_arg9) : IVec S8192x2 32) (ix2 r 1))) j)) q := by
  after_results_simp
  simp only [Cert.Take.ofBuf_toBuf]
  dsimp only [main_v24]
  simp only [cast_eq]
  exact Cert.Take.pairs_apply (by decide) hok r q

end Cert.KernelIdeal.Val
-- ==== Proof.KerLevel8.lean ====
import proofs.«426877_j670014898785_2_alg».proof.Proof.KerKeep
import proofs.«426877_j670014898785_2_alg».proof.Proof.KerArr0
import proofs.«426877_j670014898785_2_alg».proof.Proof.KerArr1
import proofs.«426877_j670014898785_2_alg».proof.Proof.KerArr2
import proofs.«426877_j670014898785_2_alg».proof.Proof.KerArr3
import proofs.«426877_j670014898785_2_alg».proof.Proof.KerArr4
import proofs.«426877_j670014898785_2_alg».proof.Proof.KerArr5
import proofs.«426877_j670014898785_2_alg».proof.Proof.KerArr6
import proofs.«426877_j670014898785_2_alg».proof.Proof.KerArr7
import proofs.«426877_j670014898785_2_alg».proof.Proof.KerArr8
import proofs.«426877_j670014898785_2_alg».proof.Proof.KerHost1
import proofs.«426877_j670014898785_2_alg».proof.Proof.KerHost2
import proofs.«426877_j670014898785_2_alg».proof.Proof.KerHost3
import proofs.«426877_j670014898785_2_alg».proof.Proof.KerHost4
import proofs.«426877_j670014898785_2_alg».proof.Proof.KerHost5
import proofs.«426877_j670014898785_2_alg».proof.Proof.KerHost6
import proofs.«426877_j670014898785_2_alg».proof.Proof.KerHost7
import proofs.«426877_j670014898785_2_alg».proof.Proof.KerHost8

noncomputable section

namespace Cert.KernelIdeal.Val

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

/-- The arrays core c is launched with, read as tables. -/
def inp (c : Dev nD) : Cert.Tree.Inputs :=
  Cert.Tree.inputsOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19))
    (m ((c : Thread nD τ).loc main_arg20))

/-- At each level the child words name rows of the level below. -/
structure Oks (c : Dev nD) : Prop where
  ok0 : Cert.Tree.ChildrenOk 16384#32 (m ((c : Thread nD τ).loc main_arg9) : IVec S8192x2 32)
  ok1 : Cert.Tree.ChildrenOk 32768#32 (m ((c : Thread nD τ).loc main_arg10) : IVec S16384x2 32)
  ok2 : Cert.Tree.ChildrenOk 65536#32 (m ((c : Thread nD τ).loc main_arg11) : IVec S32768x2 32)
  ok3 : Cert.Tree.ChildrenOk 131072#32 (m ((c : Thread nD τ).loc main_arg12) : IVec S65536x2 32)
  ok4 : Cert.Tree.ChildrenOk 262144#32 (m ((c : Thread nD τ).loc main_arg13) : IVec S131072x2 32)
  ok5 : Cert.Tree.ChildrenOk 524288#32 (m ((c : Thread nD τ).loc main_arg14) : IVec S262144x2 32)
  ok6 : Cert.Tree.ChildrenOk 1048576#32 (m ((c : Thread nD τ).loc main_arg15) : IVec S524288x2 32)
  ok7 : Cert.Tree.ChildrenOk 2097152#32 (m ((c : Thread nD τ).loc main_arg16) : IVec S1048576x2 32)

open Cert.Tree in
/-- Where Y keeps the launched arguments, a kernel's array of two-piece products over the gathered children pairs is the specification's level over the table below. -/
theorem level_tab (c : Dev nD) {Y : Valuation τ sig (Elt Ideal)} (hY : Kept m ρ c Y) {n N : Nat} {hN : 0 < N}
    {mw : BitVec 32} {O A : FVec Ideal ⟨2, ![n, 64]⟩ .f32} {P : FVec Ideal ⟨2, ![n, 128]⟩ .f32}
    {X a : FVec Ideal ⟨2, ![n, 32]⟩ .f32} {T : FVec Ideal ⟨2, ![N, 64]⟩ .f32} {C cw : IVec ⟨2, ![n, 2]⟩ 32}
    {prev : Fin N → Fin 64 → EReal} (hO : O = A)
    (hA : ∀ r j, A (ix2 r j) = fcSplit (fun q => P (ix2 r q))
      (fcU (fun i => X (ix2 r i)) (fun i j' => (Y (Proc.devRef .tc main_arg17) : FVec Ideal S32x64 .f32) (ix2 i j'))
        (fun j' => (Y (Proc.devRef .tc main_arg18) : FVec Ideal S64 .f32) (ix1 j')))
      (fun q j' => (Y (Proc.devRef .tc main_v0) : FVec Ideal S128x64 .f32) (ix2 q j'))
      (fun q j' => (Y (Proc.devRef .tc main_v1) : FVec Ideal S64x64 .f32) (ix2 q j'))
      (fun j' => (Y (Proc.devRef .tc main_arg20) : FVec Ideal S64 .f32) (ix1 j')) j)
    (hX : X = a) (hC : C = cw) (hok : ChildrenOk mw cw) (hT : T = tab2 prev)
    (hP : ChildrenOk mw C → ∀ r q, P (ix2 r q) = hpair (fun j => T (ix2 (childRow N hN mw (C (ix2 r 0))) j))
      (fun j => T (ix2 (childRow N hN mw (C (ix2 r 1))) j)) q) :
    O = tab2 (level hN mw (fun r i => a (ix2 r i)) (fun r s => cw (ix2 r s)) prev (inp m c).Wu (inp m c).bu
      (inp m c).Wh (inp m c).bh) := by
  subst hO hX hC hT
  refine eq_tab2 _ _ fun r j => ?_
  rw [hA r j, funext (hP hok r), hY.arg main_arg17 (by decide), hY.arg main_arg18 (by decide),
    hY.arg main_arg20 (by decide),
    show (fun q j' => (Y (Proc.devRef .tc main_v0) : FVec Ideal S128x64 .f32) (ix2 q j'))
      = fun q => (inp m c).Wh (lo q) from funext fun q => funext fun j' => hY.whp q j',
    show (fun q j' => (Y (Proc.devRef .tc main_v1) : FVec Ideal S64x64 .f32) (ix2 q j'))
      = fun q => (inp m c).Wh (hi q) from funext fun q => funext fun j' => hY.whu q j']
  exact (levelRow_eq_split _ _ _ _ _ _ _ _).symm

theorem emb_out0 (c : Dev nD) :
    (W2 m ρ c (Proc.devRef .tc main_v2) : FVec Ideal S2097152x64 .f32) = Cert.Tree.tab2 (Cert.Tree.emb8 (inp m c)) := by
  refine Cert.Tree.eq_tab2 _ _ fun r j => ?_
  rw [show W2 m ρ c (Proc.devRef .tc main_v2) = (dat0 (V1 m ρ) c).arrAt 3 cfg0.N from W2_arr m ρ c 3,
    arr0 (V1 m ρ) c r j]
  dsimp only [V1]
  rw [(entry0 m ρ c).arg main_arg8 (by decide), (entry0 m ρ c).arg main_arg17 (by decide),
    (entry0 m ρ c).arg main_arg18 (by decide)]
  rfl

theorem emb_out1 (c : Dev nD) (hoks : Oks m c) :
    (W5 m ρ c (Proc.devRef .tc main_v5) : FVec Ideal S1048576x64 .f32) = Cert.Tree.tab2 (Cert.Tree.emb7 (inp m c)) :=
  level_tab m ρ c (entry1 m ρ c) (W5_arr m ρ c 7) (arr1 (V4 m ρ) c) ((entry1 m ρ c).arg main_arg7 (by decide))
    ((exit1 m ρ c).arg main_arg16 (by decide)) hoks.ok7 (emb_out0 m ρ c) (host1_pairs m ρ c)

theorem emb_out2 (c : Dev nD) (hoks : Oks m c) :
    (W8 m ρ c (Proc.devRef .tc main_v8) : FVec Ideal S524288x64 .f32) = Cert.Tree.tab2 (Cert.Tree.emb6 (inp m c)) :=
  level_tab m ρ c (entry2 m ρ c) (W8_arr m ρ c 7) (arr2 (V7 m ρ) c) ((entry2 m ρ c).arg main_arg6 (by decide))
    ((exit2 m ρ c).arg main_arg15 (by decide)) hoks.ok6 (emb_out1 m ρ c hoks) (host2_pairs m ρ c)

theorem emb_out3 (c : Dev nD) (hoks : Oks m c) :
    (W11 m ρ c (Proc.devRef .tc main_v11) : FVec Ideal S262144x64 .f32) = Cert.Tree.tab2 (Cert.Tree.emb5 (inp m c)) :=
  level_tab m ρ c (entry3 m ρ c) (W11_arr m ρ c 7) (arr3 (V10 m ρ) c) ((entry3 m ρ c).arg main_arg5 (by decide))
    ((exit3 m ρ c).arg main_arg14 (by decide)) hoks.ok5 (emb_out2 m ρ c hoks) (host3_pairs m ρ c)

theorem emb_out4 (c : Dev nD) (hoks : Oks m c) :
    (W14 m ρ c (Proc.devRef .tc main_v14) : FVec Ideal S131072x64 .f32) = Cert.Tree.tab2 (Cert.Tree.emb4 (inp m c)) :=
  level_tab m ρ c (entry4 m ρ c) (W14_arr m ρ c 7) (arr4 (V13 m ρ) c) ((entry4 m ρ c).arg main_arg4 (by decide))
    ((exit4 m ρ c).arg main_arg13 (by decide)) hoks.ok4 (emb_out3 m ρ c hoks) (host4_pairs m ρ c)

theorem emb_out5 (c : Dev nD) (hoks : Oks m c) :
    (W17 m ρ c (Proc.devRef .tc main_v17) : FVec Ideal S65536x64 .f32) = Cert.Tree.tab2 (Cert.Tree.emb3 (inp m c)) :=
  level_tab m ρ c (entry5 m ρ c) (W17_arr m ρ c 7) (arr5 (V16 m ρ) c) ((entry5 m ρ c).arg main_arg3 (by decide))
    ((exit5 m ρ c).arg main_arg12 (by decide)) hoks.ok3 (emb_out4 m ρ c hoks) (host5_pairs m ρ c)

theorem emb_out6 (c : Dev nD) (hoks : Oks m c) :
    (W20 m ρ c (Proc.devRef .tc main_v20) : FVec Ideal S32768x64 .f32) = Cert.Tree.tab2 (Cert.Tree.emb2 (inp m c)) :=
  level_tab m ρ c (entry6 m ρ c) (W20_arr m ρ c 7) (arr6 (V19 m ρ) c) ((entry6 m ρ c).arg main_arg2 (by decide))
    ((exit6 m ρ c).arg main_arg11 (by decide)) hoks.ok2 (emb_out5 m ρ c hoks) (host6_pairs m ρ c)

theorem emb_out7 (c : Dev nD) (hoks : Oks m c) :
    (W23 m ρ c (Proc.devRef .tc main_v23) : FVec Ideal S16384x64 .f32) = Cert.Tree.tab2 (Cert.Tree.emb1 (inp m c)) :=
  level_tab m ρ c (entry7 m ρ c) (W23_arr m ρ c 7) (arr7 (V22 m ρ) c) ((entry7 m ρ c).arg main_arg1 (by decide))
    ((exit7 m ρ c).arg main_arg10 (by decide)) hoks.ok1 (emb_out6 m ρ c hoks) (host7_pairs m ρ c)

theorem emb_out8 (c : Dev nD) (hoks : Oks m c) :
    (W26 m ρ c (Proc.devRef .tc main_v26) : FVec Ideal S8192x64 .f32) = Cert.Tree.tab2 (Cert.Tree.emb0 (inp m c)) :=
  level_tab m ρ c (entry8 m ρ c) (W26_arr m ρ c 7) (arr8 (V25 m ρ) c) ((entry8 m ρ c).arg main_arg0 (by decide))
    ((exit8 m ρ c).arg main_arg9 (by decide)) hoks.ok0 (emb_out7 m ρ c hoks) (host8_pairs m ρ c)

end Cert.KernelIdeal.Val

end
-- ==== Proof.RefRunLib.lean ====
import proofs.«426877_j670014898785_2_alg».proof.Proof.Gen.ReferenceIdeal
import Idealize.ShloMosaic.Lib.StableHlo.Run

noncomputable section

namespace Cert.ReferenceIdeal.RefRun

open Idealize.ShloMosaic Idealize.ShloMosaic.StableHlo

section

variable {τ : Topo} {sig : RefSig} {Val : EltTy → Type}

/-- `f` at the family over `Fin 3` of three given members. -/
def at3 {x a b : Ref sig .tc} {β : Type} (f : ((k : Fin 3) → ((![x, a, b] : Fin 3 → Ref sig .tc) k).ty.Contents Val) → β)
    (A : x.ty.Contents Val) (B : a.ty.Contents Val) (C : b.ty.Contents Val) : β :=
  f (Fin.cons A (Fin.cons B (Fin.cons C fun i => i.elim0)))

/-- An operation of three operands reads each operand at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = at3 f (F (Proc.devRef .tc x)) (F (Proc.devRef .tc a)) (F (Proc.devRef .tc b)) := by
  rw [nary_result, at3]; congr 1; funext k; fin_cases k <;> rfl

/-- `V` holds `X r` at every reference `r` of `A`. -/
def Holds (A : List (Ref sig .tc)) (X : (r : Ref sig .tc) → r.ty.Contents Val) (V : Valuation τ sig Val) : Prop :=
  ∀ r ∈ A, V (Proc.devRef .tc r) = X r

/-- A line none of whose operations writes a reference of `A` leaves what `A` holds. -/
theorem Holds.keep {A : List (Ref sig .tc)} {X : (r : Ref sig .tc) → r.ty.Contents Val} {V : Valuation τ sig Val} (k : Holds A X V)
    (l : List (HloOp τ sig Val)) (h : l.Forall fun op => ∀ r ∈ A, Proc.devRef .tc r ∉ op.writes) : Holds A X (after l V) :=
  fun r hr => (after_of_forall_not_mem l V fun op ho => List.forall_iff_forall_mem.1 h op ho r hr).trans (k r hr)

end

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

end Cert.ReferenceIdeal.RefRun

end
-- ==== Proof.RefRunL8.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL8 : List (HloOp τ sig (Elt F)) :=
  [ binary main_arg8 main_arg17 main_v0 ((fun l r => Host.dotGeneral dot_S2097152x32_S32x64_S2097152x64_1_0_0_1_n_n none l r) : (⟨S2097152x32, .f32⟩ : BufTy).Contents (Elt F) → (⟨S32x64, .f32⟩ : BufTy).Contents (Elt F) → (⟨S2097152x64, .f32⟩ : BufTy).Contents (Elt F)),
    unary main_arg18 main_v1 (broadcastInDim S1x64 ![1] bcast_S64_S1x64_1 : (⟨S64, .f32⟩ : BufTy).Contents (Elt F) → (⟨S1x64, .f32⟩ : BufTy).Contents (Elt F)),
    unary main_v1 main_v2 (broadcastInDim S2097152x64 ![0, 1] bcast_S1x64_S2097152x64_0_1 : (⟨S1x64, .f32⟩ : BufTy).Contents (Elt F) → (⟨S2097152x64, .f32⟩ : BufTy).Contents (Elt F)),
    binary main_v0 main_v2 main_v3 (addf : (⟨S2097152x64, .f32⟩ : BufTy).Contents (Elt F) → (⟨S2097152x64, .f32⟩ : BufTy).Contents (Elt F) → (⟨S2097152x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2097152x64, .f32⟩) main_call0_v0) (broadcastInDim S2097152x64 ![] bcast_S_S2097152x64),
    TRef.binary (TRef.of (T := ⟨S2097152x64, .f32⟩) main_v3) (TRef.of (T := ⟨S2097152x64, .f32⟩) main_call0_v0) (TRef.of (T := ⟨S2097152x64, .f32⟩) main_v4) maximumf ]

theorem opsL8_sub : (opsL8 : List (HloOp τ sig (Elt F))).Forall fun op => op.bufs ⊆ tcRefs τ sig := by
  simp only [List.Forall, nullary_bufs_sub, unary_bufs_sub, binary_bufs_sub, and_self]

theorem opsL8_fresh : (opsL8 : List (HloOp τ sig (Elt F))).Forall fun op => op.fresh = ∅ := by
  simp only [List.Forall]; repeat' constructor

theorem opsL8_keep {V : Valuation τ sig (Elt F)} {X} (k : Holds argRefs X V) : Holds argRefs X (after opsL8 V) :=
  k.keep opsL8 (by
    simp only [List.Forall, nullary_writes, unary_writes, binary_writes, Finset.mem_singleton, (Proc.devRef_injective _).eq_iff]
    and_intros <;> decide)

theorem L8_res {V : Valuation τ sig (Elt F)} {X} (k : Holds argRefs X V) :
    after opsL8 V (Proc.devRef .tc main_v4) = val_main_v4 (F := F) (X main_arg8) (X main_arg17) (X main_arg18) := by
  after_results_simp
  rw [k main_arg8 (by decide), k main_arg17 (by decide), k main_arg18 (by decide)]
  rfl

end Cert.ReferenceIdeal.RefRun

end
-- ==== Proof.RefRunL7.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL7 : List (HloOp τ sig (Elt F)) :=
  [ binary main_arg7 main_arg17 main_v5 ((fun l r => Host.dotGeneral dot_S1048576x32_S32x64_S1048576x64_1_0_0_1_n_n none l r) : (⟨S1048576x32, .f32⟩ : BufTy).Contents (Elt F) → (⟨S32x64, .f32⟩ : BufTy).Contents (Elt F) → (⟨S1048576x64, .f32⟩ : BufTy).Contents (Elt F)),
    unary main_arg18 main_v6 (broadcastInDim S1x64 ![1] bcast_S64_S1x64_1 : (⟨S64, .f32⟩ : BufTy).Contents (Elt F) → (⟨S1x64, .f32⟩ : BufTy).Contents (Elt F)),
    unary main_v6 main_v7 (broadcastInDim S1048576x64 ![0, 1] bcast_S1x64_S1048576x64_0_1 : (⟨S1x64, .f32⟩ : BufTy).Contents (Elt F) → (⟨S1048576x64, .f32⟩ : BufTy).Contents (Elt F)),
    binary main_v5 main_v7 main_v8 (addf : (⟨S1048576x64, .f32⟩ : BufTy).Contents (Elt F) → (⟨S1048576x64, .f32⟩ : BufTy).Contents (Elt F) → (⟨S1048576x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1048576x64, .f32⟩) main_call1_v0) (broadcastInDim S1048576x64 ![] bcast_S_S1048576x64),
    TRef.binary (TRef.of (T := ⟨S1048576x64, .f32⟩) main_v8) (TRef.of (T := ⟨S1048576x64, .f32⟩) main_call1_v0) (TRef.of (T := ⟨S1048576x64, .f32⟩) main_v9) maximumf,
    unary main_arg16 main_v10 ((extractStridedSlice S1048576x1 ![0, 0] · slices_S1048576x2_S1048576x1_0_0) : (⟨S1048576x2, .i32⟩ : BufTy).Contents (Elt F) → (⟨S1048576x1, .i32⟩ : BufTy).Contents (Elt F)),
    reshape main_v10 main_v11 rfl shapeCasts_S1048576x1_S1048576,
    nullary main_c (constantI S_ 32 0#32),
    unary main_c main_v12 (broadcastInDim S1048576 ![] bcast_S_S1048576 : (⟨S_, .i32⟩ : BufTy).Contents (Elt F) → (⟨S1048576, .i32⟩ : BufTy).Contents (Elt F)),
    binary main_v11 main_v12 main_v13 (cmpi .slt : (⟨S1048576, .i32⟩ : BufTy).Contents (Elt F) → (⟨S1048576, .i32⟩ : BufTy).Contents (Elt F) → (⟨S1048576, .i1⟩ : BufTy).Contents (Elt F)),
    nullary main_c_0 (constantI S_ 32 2097152#32),
    unary main_c_0 main_v14 (broadcastInDim S1048576 ![] bcast_S_S1048576 : (⟨S_, .i32⟩ : BufTy).Contents (Elt F) → (⟨S1048576, .i32⟩ : BufTy).Contents (Elt F)),
    binary main_v11 main_v14 main_v15 (addi : (⟨S1048576, .i32⟩ : BufTy).Contents (Elt F) → (⟨S1048576, .i32⟩ : BufTy).Contents (Elt F) → (⟨S1048576, .i32⟩ : BufTy).Contents (Elt F)),
    ternary main_v13 main_v15 main_v11 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v16 main_v17 (broadcastInDim S1048576x1 ![0] bcast_S1048576_S1048576x1_0 : (⟨S1048576, .i32⟩ : BufTy).Contents (Elt F) → (⟨S1048576x1, .i32⟩ : BufTy).Contents (Elt F)),
    binary main_v4 main_v17 main_v18 ((fun x i => Host.gather gather_S2097152x64_S1048576x1_S1048576x64_1_0_n_n_0_1_164 x i) : (⟨S2097152x64, .f32⟩ : BufTy).Contents (Elt F) → (⟨S1048576x1, .i32⟩ : BufTy).Contents (Elt F) → (⟨S1048576x64, .f32⟩ : BufTy).Contents (Elt F)),
    unary main_arg16 main_v19 ((extractStridedSlice S1048576x1 ![0, 1] · slices_S1048576x2_S1048576x1_0_1) : (⟨S1048576x2, .i32⟩ : BufTy).Contents (Elt F) → (⟨S1048576x1, .i32⟩ : BufTy).Contents (Elt F)),
    reshape main_v19 main_v20 rfl shapeCasts_S1048576x1_S1048576,
    nullary main_c_1 (constantI S_ 32 0#32),
    unary main_c_1 main_v21 (broadcastInDim S1048576 ![] bcast_S_S1048576 : (⟨S_, .i32⟩ : BufTy).Contents (Elt F) → (⟨S1048576, .i32⟩ : BufTy).Contents (Elt F)),
    binary main_v20 main_v21 main_v22 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 2097152#32),
    unary main_c_2 main_v23 (broadcastInDim S1048576 ![] bcast_S_S1048576 : (⟨S_, .i32⟩ : BufTy).Contents (Elt F) → (⟨S1048576, .i32⟩ : BufTy).Contents (Elt F)),
    binary main_v20 main_v23 main_v24 (addi : (⟨S1048576, .i32⟩ : BufTy).Contents (Elt F) → (⟨S1048576, .i32⟩ : BufTy).Contents (Elt F) → (⟨S1048576, .i32⟩ : BufTy).Contents (Elt F)),
    ternary main_v22 main_v24 main_v20 main_v25 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v25 main_v26 (broadcastInDim S1048576x1 ![0] bcast_S1048576_S1048576x1_0 : (⟨S1048576, .i32⟩ : BufTy).Contents (Elt F) → (⟨S1048576x1, .i32⟩ : BufTy).Contents (Elt F)),
    binary main_v4 main_v26 main_v27 ((fun x i => Host.gather gather_S2097152x64_S1048576x1_S1048576x64_1_0_n_n_0_1_164 x i) : (⟨S2097152x64, .f32⟩ : BufTy).Contents (Elt F) → (⟨S1048576x1, .i32⟩ : BufTy).Contents (Elt F) → (⟨S1048576x64, .f32⟩ : BufTy).Contents (Elt F)),
    nary ![main_v18, main_v27, main_v9] main_v28 (fun u => concatenate S1048576x192 1 [⟨S1048576x64, u 0⟩, ⟨S1048576x64, u 1⟩, ⟨S1048576x64, u 2⟩] concatenates_S1048576x64_S1048576x64_S1048576x64_S1048576x192_d1),
    binary main_v28 main_arg19 main_v29 ((fun l r => Host.dotGeneral dot_S1048576x192_S192x64_S1048576x64_1_0_0_1_n_n none l r) : (⟨S1048576x192, .f32⟩ : BufTy).Contents (Elt F) → (⟨S192x64, .f32⟩ : BufTy).Contents (Elt F) → (⟨S1048576x64, .f32⟩ : BufTy).Contents (Elt F)),
    unary main_arg20 main_v30 (broadcastInDim S1x64 ![1] bcast_S64_S1x64_1 : (⟨S64, .f32⟩ : BufTy).Contents (Elt F) → (⟨S1x64, .f32⟩ : BufTy).Contents (Elt F)),
    unary main_v30 main_v31 (broadcastInDim S1048576x64 ![0, 1] bcast_S1x64_S1048576x64_0_1 : (⟨S1x64, .f32⟩ : BufTy).Contents (Elt F) → (⟨S1048576x64, .f32⟩ : BufTy).Contents (Elt F)),
    binary main_v29 main_v31 main_v32 (addf : (⟨S1048576x64, .f32⟩ : BufTy).Contents (Elt F) → (⟨S1048576x64, .f32⟩ : BufTy).Contents (Elt F) → (⟨S1048576x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1048576x64, .f32⟩) main_call2_v0) (broadcastInDim S1048576x64 ![] bcast_S_S1048576x64),
    TRef.binary (TRef.of (T := ⟨S1048576x64, .f32⟩) main_v32) (TRef.of (T := ⟨S1048576x64, .f32⟩) main_call2_v0) (TRef.of (T := ⟨S1048576x64, .f32⟩) main_v33) maximumf ]

theorem opsL7_sub : (opsL7 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL7_fresh : (opsL7 : List (HloOp τ sig (Elt F))).Forall fun op => op.fresh = ∅ := by
  simp only [List.Forall]; repeat' constructor

theorem opsL7_keep {V : Valuation τ sig (Elt F)} {X} (k : Holds argRefs X V) : Holds argRefs X (after opsL7 V) :=
  k.keep opsL7 (by
    simp only [List.Forall, nullary_writes, unary_writes, binary_writes, ternary_writes, reshape_writes, nary_writes, Finset.mem_singleton,
      (Proc.devRef_injective _).eq_iff]
    and_intros <;> decide)

theorem L7_res {V : Valuation τ sig (Elt F)} {X} (k : Holds argRefs X V)
    (h : V (Proc.devRef .tc main_v4) = val_main_v4 (F := F) (X main_arg8) (X main_arg17) (X main_arg18)) :
    after opsL7 V (Proc.devRef .tc main_v33) = val_main_v33 (F := F) (X main_arg7) (X main_arg8) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg7 (by decide), k main_arg16 (by decide), k main_arg17 (by decide), k main_arg18 (by decide), k main_arg19 (by decide), k main_arg20 (by decide)]
  rfl

end Cert.ReferenceIdeal.RefRun

end
-- ==== Proof.RefRunL6.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL6 : List (HloOp τ sig (Elt F)) :=
  [ binary main_arg6 main_arg17 main_v34 ((fun l r => Host.dotGeneral dot_S524288x32_S32x64_S524288x64_1_0_0_1_n_n none l r) : (⟨S524288x32, .f32⟩ : BufTy).Contents (Elt F) → (⟨S32x64, .f32⟩ : BufTy).Contents (Elt F) → (⟨S524288x64, .f32⟩ : BufTy).Contents (Elt F)),
    unary main_arg18 main_v35 (broadcastInDim S1x64 ![1] bcast_S64_S1x64_1 : (⟨S64, .f32⟩ : BufTy).Contents (Elt F) → (⟨S1x64, .f32⟩ : BufTy).Contents (Elt F)),
    unary main_v35 main_v36 (broadcastInDim S524288x64 ![0, 1] bcast_S1x64_S524288x64_0_1 : (⟨S1x64, .f32⟩ : BufTy).Contents (Elt F) → (⟨S524288x64, .f32⟩ : BufTy).Contents (Elt F)),
    binary main_v34 main_v36 main_v37 (addf : (⟨S524288x64, .f32⟩ : BufTy).Contents (Elt F) → (⟨S524288x64, .f32⟩ : BufTy).Contents (Elt F) → (⟨S524288x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S524288x64, .f32⟩) main_call3_v0) (broadcastInDim S524288x64 ![] bcast_S_S524288x64),
    TRef.binary (TRef.of (T := ⟨S524288x64, .f32⟩) main_v37) (TRef.of (T := ⟨S524288x64, .f32⟩) main_call3_v0) (TRef.of (T := ⟨S524288x64, .f32⟩) main_v38) maximumf,
    unary main_arg15 main_v39 ((extractStridedSlice S524288x1 ![0, 0] · slices_S524288x2_S524288x1_0_0) : (⟨S524288x2, .i32⟩ : BufTy).Contents (Elt F) → (⟨S524288x1, .i32⟩ : BufTy).Contents (Elt F)),
    reshape main_v39 main_v40 rfl shapeCasts_S524288x1_S524288,
    nullary main_c_3 (constantI S_ 32 0#32),
    unary main_c_3 main_v41 (broadcastInDim S524288 ![] bcast_S_S524288 : (⟨S_, .i32⟩ : BufTy).Contents (Elt F) → (⟨S524288, .i32⟩ : BufTy).Contents (Elt F)),
    binary main_v40 main_v41 main_v42 (cmpi .slt : (⟨S524288, .i32⟩ : BufTy).Contents (Elt F) → (⟨S524288, .i32⟩ : BufTy).Contents (Elt F) → (⟨S524288, .i1⟩ : BufTy).Contents (Elt F)),
    nullary main_c_4 (constantI S_ 32 1048576#32),
    unary main_c_4 main_v43 (broadcastInDim S524288 ![] bcast_S_S524288 : (⟨S_, .i32⟩ : BufTy).Contents (Elt F) → (⟨S524288, .i32⟩ : BufTy).Contents (Elt F)),
    binary main_v40 main_v43 main_v44 (addi : (⟨S524288, .i32⟩ : BufTy).Contents (Elt F) → (⟨S524288, .i32⟩ : BufTy).Contents (Elt F) → (⟨S524288, .i32⟩ : BufTy).Contents (Elt F)),
    ternary main_v42 main_v44 main_v40 main_v45 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v45 main_v46 (broadcastInDim S524288x1 ![0] bcast_S524288_S524288x1_0 : (⟨S524288, .i32⟩ : BufTy).Contents (Elt F) → (⟨S524288x1, .i32⟩ : BufTy).Contents (Elt F)),
    binary main_v33 main_v46 main_v47 ((fun x i => Host.gather gather_S1048576x64_S524288x1_S524288x64_1_0_n_n_0_1_164 x i) : (⟨S1048576x64, .f32⟩ : BufTy).Contents (Elt F) → (⟨S524288x1, .i32⟩ : BufTy).Contents (Elt F) → (⟨S524288x64, .f32⟩ : BufTy).Contents (Elt F)),
    unary main_arg15 main_v48 ((extractStridedSlice S524288x1 ![0, 1] · slices_S524288x2_S524288x1_0_1) : (⟨S524288x2, .i32⟩ : BufTy).Contents (Elt F) → (⟨S524288x1, .i32⟩ : BufTy).Contents (Elt F)),
    reshape main_v48 main_v49 rfl shapeCasts_S524288x1_S524288,
    nullary main_c_5 (constantI S_ 32 0#32),
    unary main_c_5 main_v50 (broadcastInDim S524288 ![] bcast_S_S524288 : (⟨S_, .i32⟩ : BufTy).Contents (Elt F) → (⟨S524288, .i32⟩ : BufTy).Contents (Elt F)),
    binary main_v49 main_v50 main_v51 (cmpi .slt : (⟨S524288, .i32⟩ : BufTy).Contents (Elt F) → (⟨S524288, .i32⟩ : BufTy).Contents (Elt F) → (⟨S524288, .i1⟩ : BufTy).Contents (Elt F)),
    nullary main_c_6 (constantI S_ 32 1048576#32),
    unary main_c_6 main_v52 (broadcastInDim S524288 ![] bcast_S_S524288 : (⟨S_, .i32⟩ : BufTy).Contents (Elt F) → (⟨S524288, .i32⟩ : BufTy).Contents (Elt F)),
    binary main_v49 main_v52 main_v53 (addi : (⟨S524288, .i32⟩ : BufTy).Contents (Elt F) → (⟨S524288, .i32⟩ : BufTy).Contents (Elt F) → (⟨S524288, .i32⟩ : BufTy).Contents (Elt F)),
    ternary main_v51 main_v53 main_v49 main_v54 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v54 main_v55 (broadcastInDim S524288x1 ![0] bcast_S524288_S524288x1_0 : (⟨S524288, .i32⟩ : BufTy).Contents (Elt F) → (⟨S524288x1, .i32⟩ : BufTy).Contents (Elt F)),
    binary main_v33 main_v55 main_v56 ((fun x i => Host.gather gather_S1048576x64_S524288x1_S524288x64_1_0_n_n_0_1_164 x i) : (⟨S1048576x64, .f32⟩ : BufTy).Contents (Elt F) → (⟨S524288x1, .i32⟩ : BufTy).Contents (Elt F) → (⟨S524288x64, .f32⟩ : BufTy).Contents (Elt F)),
    nary ![main_v47, main_v56, main_v38] main_v57 (fun u => concatenate S524288x192 1 [⟨S524288x64, u 0⟩, ⟨S524288x64, u 1⟩, ⟨S524288x64, u 2⟩] concatenates_S524288x64_S524288x64_S524288x64_S524288x192_d1),
    binary main_v57 main_arg19 main_v58 ((fun l r => Host.dotGeneral dot_S524288x192_S192x64_S524288x64_1_0_0_1_n_n none l r) : (⟨S524288x192, .f32⟩ : BufTy).Contents (Elt F) → (⟨S192x64, .f32⟩ : BufTy).Contents (Elt F) → (⟨S524288x64, .f32⟩ : BufTy).Contents (Elt F)),
    unary main_arg20 main_v59 (broadcastInDim S1x64 ![1] bcast_S64_S1x64_1 : (⟨S64, .f32⟩ : BufTy).Contents (Elt F) → (⟨S1x64, .f32⟩ : BufTy).Contents (Elt F)),
    unary main_v59 main_v60 (broadcastInDim S524288x64 ![0, 1] bcast_S1x64_S524288x64_0_1 : (⟨S1x64, .f32⟩ : BufTy).Contents (Elt F) → (⟨S524288x64, .f32⟩ : BufTy).Contents (Elt F)),
    binary main_v58 main_v60 main_v61 (addf : (⟨S524288x64, .f32⟩ : BufTy).Contents (Elt F) → (⟨S524288x64, .f32⟩ : BufTy).Contents (Elt F) → (⟨S524288x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S524288x64, .f32⟩) main_call4_v0) (broadcastInDim S524288x64 ![] bcast_S_S524288x64),
    TRef.binary (TRef.of (T := ⟨S524288x64, .f32⟩) main_v61) (TRef.of (T := ⟨S524288x64, .f32⟩) main_call4_v0) (TRef.of (T := ⟨S524288x64, .f32⟩) main_v62) maximumf ]

theorem opsL6_sub : (opsL6 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL6_fresh : (opsL6 : List (HloOp τ sig (Elt F))).Forall fun op => op.fresh = ∅ := by
  simp only [List.Forall]; repeat' constructor

theorem opsL6_keep {V : Valuation τ sig (Elt F)} {X} (k : Holds argRefs X V) : Holds argRefs X (after opsL6 V) :=
  k.keep opsL6 (by
    simp only [List.Forall, nullary_writes, unary_writes, binary_writes, ternary_writes, reshape_writes, nary_writes, Finset.mem_singleton,
      (Proc.devRef_injective _).eq_iff]
    and_intros <;> decide)

theorem L6_res {V : Valuation τ sig (Elt F)} {X} (k : Holds argRefs X V)
    (h : V (Proc.devRef .tc main_v33) = val_main_v33 (F := F) (X main_arg7) (X main_arg8) (X main_arg16) (X main_arg17) (X main_arg18) (X main_arg19) (X main_arg20)) :
    after opsL6 V (Proc.devRef .tc main_v62) = val_main_v62 (F := F) (X main_arg6) (X main_arg7) (X main_arg8) (X main_arg15) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg6 (by decide), k main_arg15 (by decide), k main_arg17 (by decide), k main_arg18 (by decide), k main_arg19 (by decide), k main_arg20 (by decide)]
  rfl

end Cert.ReferenceIdeal.RefRun

end
-- ==== Proof.RefRunL5.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL5 : List (HloOp τ sig (Elt F)) :=
  [ binary main_arg5 main_arg17 main_v63 ((fun l r => Host.dotGeneral dot_S262144x32_S32x64_S262144x64_1_0_0_1_n_n none l r) : (⟨S262144x32, .f32⟩ : BufTy).Contents (Elt F) → (⟨S32x64, .f32⟩ : BufTy).Contents (Elt F) → (⟨S262144x64, .f32⟩ : BufTy).Contents (Elt F)),
    unary main_arg18 main_v64 (broadcastInDim S1x64 ![1] bcast_S64_S1x64_1 : (⟨S64, .f32⟩ : BufTy).Contents (Elt F) → (⟨S1x64, .f32⟩ : BufTy).Contents (Elt F)),
    unary main_v64 main_v65 (broadcastInDim S262144x64 ![0, 1] bcast_S1x64_S262144x64_0_1 : (⟨S1x64, .f32⟩ : BufTy).Contents (Elt F) → (⟨S262144x64, .f32⟩ : BufTy).Contents (Elt F)),
    binary main_v63 main_v65 main_v66 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S262144x64, .f32⟩) main_call5_v0) (broadcastInDim S262144x64 ![] bcast_S_S262144x64),
    TRef.binary (TRef.of (T := ⟨S262144x64, .f32⟩) main_v66) (TRef.of (T := ⟨S262144x64, .f32⟩) main_call5_v0) (TRef.of (T := ⟨S262144x64, .f32⟩) main_v67) maximumf,
    unary main_arg14 main_v68 ((extractStridedSlice S262144x1 ![0, 0] · slices_S262144x2_S262144x1_0_0) : (⟨S262144x2, .i32⟩ : BufTy).Contents (Elt F) → (⟨S262144x1, .i32⟩ : BufTy).Contents (Elt F)),
    reshape main_v68 main_v69 rfl shapeCasts_S262144x1_S262144,
    nullary main_c_7 (constantI S_ 32 0#32),
    unary main_c_7 main_v70 (broadcastInDim S262144 ![] bcast_S_S262144 : (⟨S_, .i32⟩ : BufTy).Contents (Elt F) → (⟨S262144, .i32⟩ : BufTy).Contents (Elt F)),
    binary main_v69 main_v70 main_v71 (cmpi .slt : (⟨S262144, .i32⟩ : BufTy).Contents (Elt F) → (⟨S262144, .i32⟩ : BufTy).Contents (Elt F) → (⟨S262144, .i1⟩ : BufTy).Contents (Elt F)),
    nullary main_c_8 (constantI S_ 32 524288#32),
    unary main_c_8 main_v72 (broadcastInDim S262144 ![] bcast_S_S262144 : (⟨S_, .i32⟩ : BufTy).Contents (Elt F) → (⟨S262144, .i32⟩ : BufTy).Contents (Elt F)),
    binary main_v69 main_v72 main_v73 (addi : (⟨S262144, .i32⟩ : BufTy).Contents (Elt F) → (⟨S262144, .i32⟩ : BufTy).Contents (Elt F) → (⟨S262144, .i32⟩ : BufTy).Contents (Elt F)),
    ternary main_v71 main_v73 main_v69 main_v74 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v74 main_v75 (broadcastInDim S262144x1 ![0] bcast_S262144_S262144x1_0 : (⟨S262144, .i32⟩ : BufTy).Contents (Elt F) → (⟨S262144x1, .i32⟩ : BufTy).Contents (Elt F)),
    binary main_v62 main_v75 main_v76 ((fun x i => Host.gather gather_S524288x64_S262144x1_S262144x64_1_0_n_n_0_1_164 x i) : (⟨S524288x64, .f32⟩ : BufTy).Contents (Elt F) → (⟨S262144x1, .i32⟩ : BufTy).Contents (Elt F) → (⟨S262144x64, .f32⟩ : BufTy).Contents (Elt F)),
    unary main_arg14 main_v77 ((extractStridedSlice S262144x1 ![0, 1] · slices_S262144x2_S262144x1_0_1) : (⟨S262144x2, .i32⟩ : BufTy).Contents (Elt F) → (⟨S262144x1, .i32⟩ : BufTy).Contents (Elt F)),
    reshape main_v77 main_v78 rfl shapeCasts_S262144x1_S262144,
    nullary main_c_9 (constantI S_ 32 0#32),
    unary main_c_9 main_v79 (broadcastInDim S262144 ![] bcast_S_S262144 : (⟨S_, .i32⟩ : BufTy).Contents (Elt F) → (⟨S262144, .i32⟩ : BufTy).Contents (Elt F)),
    binary main_v78 main_v79 main_v80 (cmpi .slt : (⟨S262144, .i32⟩ : BufTy).Contents (Elt F) → (⟨S262144, .i32⟩ : BufTy).Contents (Elt F) → (⟨S262144, .i1⟩ : BufTy).Contents (Elt F)),
    nullary main_c_10 (constantI S_ 32 524288#32),
    unary main_c_10 main_v81 (broadcastInDim S262144 ![] bcast_S_S262144 : (⟨S_, .i32⟩ : BufTy).Contents (Elt F) → (⟨S262144, .i32⟩ : BufTy).Contents (Elt F)),
    binary main_v78 main_v81 main_v82 (addi : (⟨S262144, .i32⟩ : BufTy).Contents (Elt F) → (⟨S262144, .i32⟩ : BufTy).Contents (Elt F) → (⟨S262144, .i32⟩ : BufTy).Contents (Elt F)),
    ternary main_v80 main_v82 main_v78 main_v83 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v83 main_v84 (broadcastInDim S262144x1 ![0] bcast_S262144_S262144x1_0 : (⟨S262144, .i32⟩ : BufTy).Contents (Elt F) → (⟨S262144x1, .i32⟩ : BufTy).Contents (Elt F)),
    binary main_v62 main_v84 main_v85 ((fun x i => Host.gather gather_S524288x64_S262144x1_S262144x64_1_0_n_n_0_1_164 x i) : (⟨S524288x64, .f32⟩ : BufTy).Contents (Elt F) → (⟨S262144x1, .i32⟩ : BufTy).Contents (Elt F) → (⟨S262144x64, .f32⟩ : BufTy).Contents (Elt F)),
    nary ![main_v76, main_v85, main_v67] main_v86 (fun u => concatenate S262144x192 1 [⟨S262144x64, u 0⟩, ⟨S262144x64, u 1⟩, ⟨S262144x64, u 2⟩] concatenates_S262144x64_S262144x64_S262144x64_S262144x192_d1),
    binary main_v86 main_arg19 main_v87 ((fun l r => Host.dotGeneral dot_S262144x192_S192x64_S262144x64_1_0_0_1_n_n none l r) : (⟨S262144x192, .f32⟩ : BufTy).Contents (Elt F) → (⟨S192x64, .f32⟩ : BufTy).Contents (Elt F) → (⟨S262144x64, .f32⟩ : BufTy).Contents (Elt F)),
    unary main_arg20 main_v88 (broadcastInDim S1x64 ![1] bcast_S64_S1x64_1 : (⟨S64, .f32⟩ : BufTy).Contents (Elt F) → (⟨S1x64, .f32⟩ : BufTy).Contents (Elt F)),
    unary main_v88 main_v89 (broadcastInDim S262144x64 ![0, 1] bcast_S1x64_S262144x64_0_1 : (⟨S1x64, .f32⟩ : BufTy).Contents (Elt F) → (⟨S262144x64, .f32⟩ : BufTy).Contents (Elt F)),
    binary main_v87 main_v89 main_v90 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S262144x64, .f32⟩) main_call6_v0) (broadcastInDim S262144x64 ![] bcast_S_S262144x64),
    TRef.binary (TRef.of (T := ⟨S262144x64, .f32⟩) main_v90) (TRef.of (T := ⟨S262144x64, .f32⟩) main_call6_v0) (TRef.of (T := ⟨S262144x64, .f32⟩) main_v91) maximumf ]

theorem opsL5_sub : (opsL5 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL5_fresh : (opsL5 : List (HloOp τ sig (Elt F))).Forall fun op => op.fresh = ∅ := by
  simp only [List.Forall]; repeat' constructor

theorem opsL5_keep {V : Valuation τ sig (Elt F)} {X} (k : Holds argRefs X V) : Holds argRefs X (after opsL5 V) :=
  k.keep opsL5 (by
    simp only [List.Forall, nullary_writes, unary_writes, binary_writes, ternary_writes, reshape_writes, nary_writes, Finset.mem_singleton,
      (Proc.devRef_injective _).eq_iff]
    and_intros <;> decide)

theorem L5_res {V : Valuation τ sig (Elt F)} {X} (k : Holds argRefs X V)
    (h : V (Proc.devRef .tc main_v62) = val_main_v62 (F := F) (X main_arg6) (X main_arg7) (X main_arg8) (X main_arg15) (X main_arg16) (X main_arg17) (X main_arg18) (X main_arg19) (X main_arg20)) :
    after opsL5 V (Proc.devRef .tc main_v91) = val_main_v91 (F := F) (X main_arg5) (X main_arg6) (X main_arg7) (X main_arg8) (X main_arg14) (X main_arg15) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg5 (by decide), k main_arg14 (by decide), k main_arg17 (by decide), k main_arg18 (by decide), k main_arg19 (by decide), k main_arg20 (by decide)]
  rfl

end Cert.ReferenceIdeal.RefRun

end
-- ==== Proof.RefRunL4.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL4 : List (HloOp τ sig (Elt F)) :=
  [ binary main_arg4 main_arg17 main_v92 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    unary main_arg18 main_v93 (broadcastInDim S1x64 ![1] bcast_S64_S1x64_1 : (⟨S64, .f32⟩ : BufTy).Contents (Elt F) → (⟨S1x64, .f32⟩ : BufTy).Contents (Elt F)),
    unary main_v93 main_v94 (broadcastInDim S131072x64 ![0, 1] bcast_S1x64_S131072x64_0_1 : (⟨S1x64, .f32⟩ : BufTy).Contents (Elt F) → (⟨S131072x64, .f32⟩ : BufTy).Contents (Elt F)),
    binary main_v92 main_v94 main_v95 (addf : (⟨S131072x64, .f32⟩ : BufTy).Contents (Elt F) → (⟨S131072x64, .f32⟩ : BufTy).Contents (Elt F) → (⟨S131072x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S131072x64, .f32⟩) main_call7_v0) (broadcastInDim S131072x64 ![] bcast_S_S131072x64),
    TRef.binary (TRef.of (T := ⟨S131072x64, .f32⟩) main_v95) (TRef.of (T := ⟨S131072x64, .f32⟩) main_call7_v0) (TRef.of (T := ⟨S131072x64, .f32⟩) main_v96) maximumf,
    unary main_arg13 main_v97 ((extractStridedSlice S131072x1 ![0, 0] · slices_S131072x2_S131072x1_0_0) : (⟨S131072x2, .i32⟩ : BufTy).Contents (Elt F) → (⟨S131072x1, .i32⟩ : BufTy).Contents (Elt F)),
    reshape main_v97 main_v98 rfl shapeCasts_S131072x1_S131072,
    nullary main_c_11 (constantI S_ 32 0#32),
    unary main_c_11 main_v99 (broadcastInDim S131072 ![] bcast_S_S131072 : (⟨S_, .i32⟩ : BufTy).Contents (Elt F) → (⟨S131072, .i32⟩ : BufTy).Contents (Elt F)),
    binary main_v98 main_v99 main_v100 (cmpi .slt : (⟨S131072, .i32⟩ : BufTy).Contents (Elt F) → (⟨S131072, .i32⟩ : BufTy).Contents (Elt F) → (⟨S131072, .i1⟩ : BufTy).Contents (Elt F)),
    nullary main_c_12 (constantI S_ 32 262144#32),
    unary main_c_12 main_v101 (broadcastInDim S131072 ![] bcast_S_S131072 : (⟨S_, .i32⟩ : BufTy).Contents (Elt F) → (⟨S131072, .i32⟩ : BufTy).Contents (Elt F)),
    binary main_v98 main_v101 main_v102 (addi : (⟨S131072, .i32⟩ : BufTy).Contents (Elt F) → (⟨S131072, .i32⟩ : BufTy).Contents (Elt F) → (⟨S131072, .i32⟩ : BufTy).Contents (Elt F)),
    ternary main_v100 main_v102 main_v98 main_v103 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v103 main_v104 (broadcastInDim S131072x1 ![0] bcast_S131072_S131072x1_0 : (⟨S131072, .i32⟩ : BufTy).Contents (Elt F) → (⟨S131072x1, .i32⟩ : BufTy).Contents (Elt F)),
    binary main_v91 main_v104 main_v105 ((fun x i => Host.gather gather_S262144x64_S131072x1_S131072x64_1_0_n_n_0_1_164 x i) : (⟨S262144x64, .f32⟩ : BufTy).Contents (Elt F) → (⟨S131072x1, .i32⟩ : BufTy).Contents (Elt F) → (⟨S131072x64, .f32⟩ : BufTy).Contents (Elt F)),
    unary main_arg13 main_v106 ((extractStridedSlice S131072x1 ![0, 1] · slices_S131072x2_S131072x1_0_1) : (⟨S131072x2, .i32⟩ : BufTy).Contents (Elt F) → (⟨S131072x1, .i32⟩ : BufTy).Contents (Elt F)),
    reshape main_v106 main_v107 rfl shapeCasts_S131072x1_S131072,
    nullary main_c_13 (constantI S_ 32 0#32),
    unary main_c_13 main_v108 (broadcastInDim S131072 ![] bcast_S_S131072 : (⟨S_, .i32⟩ : BufTy).Contents (Elt F) → (⟨S131072, .i32⟩ : BufTy).Contents (Elt F)),
    binary main_v107 main_v108 main_v109 (cmpi .slt : (⟨S131072, .i32⟩ : BufTy).Contents (Elt F) → (⟨S131072, .i32⟩ : BufTy).Contents (Elt F) → (⟨S131072, .i1⟩ : BufTy).Contents (Elt F)),
    nullary main_c_14 (constantI S_ 32 262144#32),
    unary main_c_14 main_v110 (broadcastInDim S131072 ![] bcast_S_S131072 : (⟨S_, .i32⟩ : BufTy).Contents (Elt F) → (⟨S131072, .i32⟩ : BufTy).Contents (Elt F)),
    binary main_v107 main_v110 main_v111 (addi : (⟨S131072, .i32⟩ : BufTy).Contents (Elt F) → (⟨S131072, .i32⟩ : BufTy).Contents (Elt F) → (⟨S131072, .i32⟩ : BufTy).Contents (Elt F)),
    ternary main_v109 main_v111 main_v107 main_v112 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v112 main_v113 (broadcastInDim S131072x1 ![0] bcast_S131072_S131072x1_0 : (⟨S131072, .i32⟩ : BufTy).Contents (Elt F) → (⟨S131072x1, .i32⟩ : BufTy).Contents (Elt F)),
    binary main_v91 main_v113 main_v114 ((fun x i => Host.gather gather_S262144x64_S131072x1_S131072x64_1_0_n_n_0_1_164 x i) : (⟨S262144x64, .f32⟩ : BufTy).Contents (Elt F) → (⟨S131072x1, .i32⟩ : BufTy).Contents (Elt F) → (⟨S131072x64, .f32⟩ : BufTy).Contents (Elt F)),
    nary ![main_v105, main_v114, main_v96] main_v115 (fun u => concatenate S131072x192 1 [⟨S131072x64, u 0⟩, ⟨S131072x64, u 1⟩, ⟨S131072x64, u 2⟩] concatenates_S131072x64_S131072x64_S131072x64_S131072x192_d1),
    binary main_v115 main_arg19 main_v116 ((fun l r => Host.dotGeneral dot_S131072x192_S192x64_S131072x64_1_0_0_1_n_n none l r) : (⟨S131072x192, .f32⟩ : BufTy).Contents (Elt F) → (⟨S192x64, .f32⟩ : BufTy).Contents (Elt F) → (⟨S131072x64, .f32⟩ : BufTy).Contents (Elt F)),
    unary main_arg20 main_v117 (broadcastInDim S1x64 ![1] bcast_S64_S1x64_1 : (⟨S64, .f32⟩ : BufTy).Contents (Elt F) → (⟨S1x64, .f32⟩ : BufTy).Contents (Elt F)),
    unary main_v117 main_v118 (broadcastInDim S131072x64 ![0, 1] bcast_S1x64_S131072x64_0_1 : (⟨S1x64, .f32⟩ : BufTy).Contents (Elt F) → (⟨S131072x64, .f32⟩ : BufTy).Contents (Elt F)),
    binary main_v116 main_v118 main_v119 (addf : (⟨S131072x64, .f32⟩ : BufTy).Contents (Elt F) → (⟨S131072x64, .f32⟩ : BufTy).Contents (Elt F) → (⟨S131072x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S131072x64, .f32⟩) main_call8_v0) (broadcastInDim S131072x64 ![] bcast_S_S131072x64),
    TRef.binary (TRef.of (T := ⟨S131072x64, .f32⟩) main_v119) (TRef.of (T := ⟨S131072x64, .f32⟩) main_call8_v0) (TRef.of (T := ⟨S131072x64, .f32⟩) main_v120) maximumf ]

theorem opsL4_sub : (opsL4 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL4_fresh : (opsL4 : List (HloOp τ sig (Elt F))).Forall fun op => op.fresh = ∅ := by
  simp only [List.Forall]; repeat' constructor

theorem opsL4_keep {V : Valuation τ sig (Elt F)} {X} (k : Holds argRefs X V) : Holds argRefs X (after opsL4 V) :=
  k.keep opsL4 (by
    simp only [List.Forall, nullary_writes, unary_writes, binary_writes, ternary_writes, reshape_writes, nary_writes, Finset.mem_singleton,
      (Proc.devRef_injective _).eq_iff]
    and_intros <;> decide)

theorem L4_res {V : Valuation τ sig (Elt F)} {X} (k : Holds argRefs X V)
    (h : V (Proc.devRef .tc main_v91) = val_main_v91 (F := F) (X main_arg5) (X main_arg6) (X main_arg7) (X main_arg8) (X main_arg14) (X main_arg15) (X main_arg16) (X main_arg17) (X main_arg18) (X main_arg19) (X main_arg20)) :
    after opsL4 V (Proc.devRef .tc main_v120) = val_main_v120 (F := F) (X main_arg4) (X main_arg5) (X main_arg6) (X main_arg7) (X main_arg8) (X main_arg13) (X main_arg14) (X main_arg15) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg4 (by decide), k main_arg13 (by decide), k main_arg17 (by decide), k main_arg18 (by decide), k main_arg19 (by decide), k main_arg20 (by decide)]
  rfl

end Cert.ReferenceIdeal.RefRun

end
-- ==== Proof.RefRunL3.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL3 : List (HloOp τ sig (Elt F)) :=
  [ binary main_arg3 main_arg17 main_v121 ((fun l r => Host.dotGeneral dot_S65536x32_S32x64_S65536x64_1_0_0_1_n_n none l r) : (⟨S65536x32, .f32⟩ : BufTy).Contents (Elt F) → (⟨S32x64, .f32⟩ : BufTy).Contents (Elt F) → (⟨S65536x64, .f32⟩ : BufTy).Contents (Elt F)),
    unary main_arg18 main_v122 (broadcastInDim S1x64 ![1] bcast_S64_S1x64_1 : (⟨S64, .f32⟩ : BufTy).Contents (Elt F) → (⟨S1x64, .f32⟩ : BufTy).Contents (Elt F)),
    unary main_v122 main_v123 (broadcastInDim S65536x64 ![0, 1] bcast_S1x64_S65536x64_0_1 : (⟨S1x64, .f32⟩ : BufTy).Contents (Elt F) → (⟨S65536x64, .f32⟩ : BufTy).Contents (Elt F)),
    binary main_v121 main_v123 main_v124 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S65536x64, .f32⟩) main_call9_v0) (broadcastInDim S65536x64 ![] bcast_S_S65536x64),
    TRef.binary (TRef.of (T := ⟨S65536x64, .f32⟩) main_v124) (TRef.of (T := ⟨S65536x64, .f32⟩) main_call9_v0) (TRef.of (T := ⟨S65536x64, .f32⟩) main_v125) maximumf,
    unary main_arg12 main_v126 ((extractStridedSlice S65536x1 ![0, 0] · slices_S65536x2_S65536x1_0_0) : (⟨S65536x2, .i32⟩ : BufTy).Contents (Elt F) → (⟨S65536x1, .i32⟩ : BufTy).Contents (Elt F)),
    reshape main_v126 main_v127 rfl shapeCasts_S65536x1_S65536,
    nullary main_c_15 (constantI S_ 32 0#32),
    unary main_c_15 main_v128 (broadcastInDim S65536 ![] bcast_S_S65536 : (⟨S_, .i32⟩ : BufTy).Contents (Elt F) → (⟨S65536, .i32⟩ : BufTy).Contents (Elt F)),
    binary main_v127 main_v128 main_v129 (cmpi .slt : (⟨S65536, .i32⟩ : BufTy).Contents (Elt F) → (⟨S65536, .i32⟩ : BufTy).Contents (Elt F) → (⟨S65536, .i1⟩ : BufTy).Contents (Elt F)),
    nullary main_c_16 (constantI S_ 32 131072#32),
    unary main_c_16 main_v130 (broadcastInDim S65536 ![] bcast_S_S65536 : (⟨S_, .i32⟩ : BufTy).Contents (Elt F) → (⟨S65536, .i32⟩ : BufTy).Contents (Elt F)),
    binary main_v127 main_v130 main_v131 (addi : (⟨S65536, .i32⟩ : BufTy).Contents (Elt F) → (⟨S65536, .i32⟩ : BufTy).Contents (Elt F) → (⟨S65536, .i32⟩ : BufTy).Contents (Elt F)),
    ternary main_v129 main_v131 main_v127 main_v132 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v132 main_v133 (broadcastInDim S65536x1 ![0] bcast_S65536_S65536x1_0 : (⟨S65536, .i32⟩ : BufTy).Contents (Elt F) → (⟨S65536x1, .i32⟩ : BufTy).Contents (Elt F)),
    binary main_v120 main_v133 main_v134 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    unary main_arg12 main_v135 ((extractStridedSlice S65536x1 ![0, 1] · slices_S65536x2_S65536x1_0_1) : (⟨S65536x2, .i32⟩ : BufTy).Contents (Elt F) → (⟨S65536x1, .i32⟩ : BufTy).Contents (Elt F)),
    reshape main_v135 main_v136 rfl shapeCasts_S65536x1_S65536,
    nullary main_c_17 (constantI S_ 32 0#32),
    unary main_c_17 main_v137 (broadcastInDim S65536 ![] bcast_S_S65536 : (⟨S_, .i32⟩ : BufTy).Contents (Elt F) → (⟨S65536, .i32⟩ : BufTy).Contents (Elt F)),
    binary main_v136 main_v137 main_v138 (cmpi .slt : (⟨S65536, .i32⟩ : BufTy).Contents (Elt F) → (⟨S65536, .i32⟩ : BufTy).Contents (Elt F) → (⟨S65536, .i1⟩ : BufTy).Contents (Elt F)),
    nullary main_c_18 (constantI S_ 32 131072#32),
    unary main_c_18 main_v139 (broadcastInDim S65536 ![] bcast_S_S65536 : (⟨S_, .i32⟩ : BufTy).Contents (Elt F) → (⟨S65536, .i32⟩ : BufTy).Contents (Elt F)),
    binary main_v136 main_v139 main_v140 (addi : (⟨S65536, .i32⟩ : BufTy).Contents (Elt F) → (⟨S65536, .i32⟩ : BufTy).Contents (Elt F) → (⟨S65536, .i32⟩ : BufTy).Contents (Elt F)),
    ternary main_v138 main_v140 main_v136 main_v141 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v141 main_v142 (broadcastInDim S65536x1 ![0] bcast_S65536_S65536x1_0 : (⟨S65536, .i32⟩ : BufTy).Contents (Elt F) → (⟨S65536x1, .i32⟩ : BufTy).Contents (Elt F)),
    binary main_v120 main_v142 main_v143 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    nary ![main_v134, main_v143, main_v125] main_v144 (fun u => concatenate S65536x192 1 [⟨S65536x64, u 0⟩, ⟨S65536x64, u 1⟩, ⟨S65536x64, u 2⟩] concatenates_S65536x64_S65536x64_S65536x64_S65536x192_d1),
    binary main_v144 main_arg19 main_v145 ((fun l r => Host.dotGeneral dot_S65536x192_S192x64_S65536x64_1_0_0_1_n_n none l r) : (⟨S65536x192, .f32⟩ : BufTy).Contents (Elt F) → (⟨S192x64, .f32⟩ : BufTy).Contents (Elt F) → (⟨S65536x64, .f32⟩ : BufTy).Contents (Elt F)),
    unary main_arg20 main_v146 (broadcastInDim S1x64 ![1] bcast_S64_S1x64_1 : (⟨S64, .f32⟩ : BufTy).Contents (Elt F) → (⟨S1x64, .f32⟩ : BufTy).Contents (Elt F)),
    unary main_v146 main_v147 (broadcastInDim S65536x64 ![0, 1] bcast_S1x64_S65536x64_0_1 : (⟨S1x64, .f32⟩ : BufTy).Contents (Elt F) → (⟨S65536x64, .f32⟩ : BufTy).Contents (Elt F)),
    binary main_v145 main_v147 main_v148 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S65536x64, .f32⟩) main_call10_v0) (broadcastInDim S65536x64 ![] bcast_S_S65536x64),
    TRef.binary (TRef.of (T := ⟨S65536x64, .f32⟩) main_v148) (TRef.of (T := ⟨S65536x64, .f32⟩) main_call10_v0) (TRef.of (T := ⟨S65536x64, .f32⟩) main_v149) maximumf ]

theorem opsL3_sub : (opsL3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL3_fresh : (opsL3 : List (HloOp τ sig (Elt F))).Forall fun op => op.fresh = ∅ := by
  simp only [List.Forall]; repeat' constructor

theorem opsL3_keep {V : Valuation τ sig (Elt F)} {X} (k : Holds argRefs X V) : Holds argRefs X (after opsL3 V) :=
  k.keep opsL3 (by
    simp only [List.Forall, nullary_writes, unary_writes, binary_writes, ternary_writes, reshape_writes, nary_writes, Finset.mem_singleton,
      (Proc.devRef_injective _).eq_iff]
    and_intros <;> decide)

theorem L3_res {V : Valuation τ sig (Elt F)} {X} (k : Holds argRefs X V)
    (h : V (Proc.devRef .tc main_v120) = val_main_v120 (F := F) (X main_arg4) (X main_arg5) (X main_arg6) (X main_arg7) (X main_arg8) (X main_arg13) (X main_arg14) (X main_arg15) (X main_arg16) (X main_arg17) (X main_arg18) (X main_arg19) (X main_arg20)) :
    after opsL3 V (Proc.devRef .tc main_v149) = val_main_v149 (F := F) (X main_arg3) (X main_arg4) (X main_arg5) (X main_arg6) (X main_arg7) (X main_arg8) (X main_arg12) (X main_arg13) (X main_arg14) (X main_arg15) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg3 (by decide), k main_arg12 (by decide), k main_arg17 (by decide), k main_arg18 (by decide), k main_arg19 (by decide), k main_arg20 (by decide)]
  rfl

end Cert.ReferenceIdeal.RefRun

end
-- ==== Proof.RefRunL2.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL2 : List (HloOp τ sig (Elt F)) :=
  [ binary main_arg2 main_arg17 main_v150 ((fun l r => Host.dotGeneral dot_S32768x32_S32x64_S32768x64_1_0_0_1_n_n none l r) : (⟨S32768x32, .f32⟩ : BufTy).Contents (Elt F) → (⟨S32x64, .f32⟩ : BufTy).Contents (Elt F) → (⟨S32768x64, .f32⟩ : BufTy).Contents (Elt F)),
    unary main_arg18 main_v151 (broadcastInDim S1x64 ![1] bcast_S64_S1x64_1 : (⟨S64, .f32⟩ : BufTy).Contents (Elt F) → (⟨S1x64, .f32⟩ : BufTy).Contents (Elt F)),
    unary main_v151 main_v152 (broadcastInDim S32768x64 ![0, 1] bcast_S1x64_S32768x64_0_1 : (⟨S1x64, .f32⟩ : BufTy).Contents (Elt F) → (⟨S32768x64, .f32⟩ : BufTy).Contents (Elt F)),
    binary main_v150 main_v152 main_v153 (addf : (⟨S32768x64, .f32⟩ : BufTy).Contents (Elt F) → (⟨S32768x64, .f32⟩ : BufTy).Contents (Elt F) → (⟨S32768x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S32768x64, .f32⟩) main_call11_v0) (broadcastInDim S32768x64 ![] bcast_S_S32768x64),
    TRef.binary (TRef.of (T := ⟨S32768x64, .f32⟩) main_v153) (TRef.of (T := ⟨S32768x64, .f32⟩) main_call11_v0) (TRef.of (T := ⟨S32768x64, .f32⟩) main_v154) maximumf,
    unary main_arg11 main_v155 ((extractStridedSlice S32768x1 ![0, 0] · slices_S32768x2_S32768x1_0_0) : (⟨S32768x2, .i32⟩ : BufTy).Contents (Elt F) → (⟨S32768x1, .i32⟩ : BufTy).Contents (Elt F)),
    reshape main_v155 main_v156 rfl shapeCasts_S32768x1_S32768,
    nullary main_c_19 (constantI S_ 32 0#32),
    unary main_c_19 main_v157 (broadcastInDim S32768 ![] bcast_S_S32768 : (⟨S_, .i32⟩ : BufTy).Contents (Elt F) → (⟨S32768, .i32⟩ : BufTy).Contents (Elt F)),
    binary main_v156 main_v157 main_v158 (cmpi .slt : (⟨S32768, .i32⟩ : BufTy).Contents (Elt F) → (⟨S32768, .i32⟩ : BufTy).Contents (Elt F) → (⟨S32768, .i1⟩ : BufTy).Contents (Elt F)),
    nullary main_c_20 (constantI S_ 32 65536#32),
    unary main_c_20 main_v159 (broadcastInDim S32768 ![] bcast_S_S32768 : (⟨S_, .i32⟩ : BufTy).Contents (Elt F) → (⟨S32768, .i32⟩ : BufTy).Contents (Elt F)),
    binary main_v156 main_v159 main_v160 (addi : (⟨S32768, .i32⟩ : BufTy).Contents (Elt F) → (⟨S32768, .i32⟩ : BufTy).Contents (Elt F) → (⟨S32768, .i32⟩ : BufTy).Contents (Elt F)),
    ternary main_v158 main_v160 main_v156 main_v161 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v161 main_v162 (broadcastInDim S32768x1 ![0] bcast_S32768_S32768x1_0 : (⟨S32768, .i32⟩ : BufTy).Contents (Elt F) → (⟨S32768x1, .i32⟩ : BufTy).Contents (Elt F)),
    binary main_v149 main_v162 main_v163 ((fun x i => Host.gather gather_S65536x64_S32768x1_S32768x64_1_0_n_n_0_1_164 x i) : (⟨S65536x64, .f32⟩ : BufTy).Contents (Elt F) → (⟨S32768x1, .i32⟩ : BufTy).Contents (Elt F) → (⟨S32768x64, .f32⟩ : BufTy).Contents (Elt F)),
    unary main_arg11 main_v164 ((extractStridedSlice S32768x1 ![0, 1] · slices_S32768x2_S32768x1_0_1) : (⟨S32768x2, .i32⟩ : BufTy).Contents (Elt F) → (⟨S32768x1, .i32⟩ : BufTy).Contents (Elt F)),
    reshape main_v164 main_v165 rfl shapeCasts_S32768x1_S32768,
    nullary main_c_21 (constantI S_ 32 0#32),
    unary main_c_21 main_v166 (broadcastInDim S32768 ![] bcast_S_S32768 : (⟨S_, .i32⟩ : BufTy).Contents (Elt F) → (⟨S32768, .i32⟩ : BufTy).Contents (Elt F)),
    binary main_v165 main_v166 main_v167 (cmpi .slt : (⟨S32768, .i32⟩ : BufTy).Contents (Elt F) → (⟨S32768, .i32⟩ : BufTy).Contents (Elt F) → (⟨S32768, .i1⟩ : BufTy).Contents (Elt F)),
    nullary main_c_22 (constantI S_ 32 65536#32),
    unary main_c_22 main_v168 (broadcastInDim S32768 ![] bcast_S_S32768 : (⟨S_, .i32⟩ : BufTy).Contents (Elt F) → (⟨S32768, .i32⟩ : BufTy).Contents (Elt F)),
    binary main_v165 main_v168 main_v169 (addi : (⟨S32768, .i32⟩ : BufTy).Contents (Elt F) → (⟨S32768, .i32⟩ : BufTy).Contents (Elt F) → (⟨S32768, .i32⟩ : BufTy).Contents (Elt F)),
    ternary main_v167 main_v169 main_v165 main_v170 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v170 main_v171 (broadcastInDim S32768x1 ![0] bcast_S32768_S32768x1_0 : (⟨S32768, .i32⟩ : BufTy).Contents (Elt F) → (⟨S32768x1, .i32⟩ : BufTy).Contents (Elt F)),
    binary main_v149 main_v171 main_v172 ((fun x i => Host.gather gather_S65536x64_S32768x1_S32768x64_1_0_n_n_0_1_164 x i) : (⟨S65536x64, .f32⟩ : BufTy).Contents (Elt F) → (⟨S32768x1, .i32⟩ : BufTy).Contents (Elt F) → (⟨S32768x64, .f32⟩ : BufTy).Contents (Elt F)),
    nary ![main_v163, main_v172, main_v154] main_v173 (fun u => concatenate S32768x192 1 [⟨S32768x64, u 0⟩, ⟨S32768x64, u 1⟩, ⟨S32768x64, u 2⟩] concatenates_S32768x64_S32768x64_S32768x64_S32768x192_d1),
    binary main_v173 main_arg19 main_v174 ((fun l r => Host.dotGeneral dot_S32768x192_S192x64_S32768x64_1_0_0_1_n_n none l r) : (⟨S32768x192, .f32⟩ : BufTy).Contents (Elt F) → (⟨S192x64, .f32⟩ : BufTy).Contents (Elt F) → (⟨S32768x64, .f32⟩ : BufTy).Contents (Elt F)),
    unary main_arg20 main_v175 (broadcastInDim S1x64 ![1] bcast_S64_S1x64_1 : (⟨S64, .f32⟩ : BufTy).Contents (Elt F) → (⟨S1x64, .f32⟩ : BufTy).Contents (Elt F)),
    unary main_v175 main_v176 (broadcastInDim S32768x64 ![0, 1] bcast_S1x64_S32768x64_0_1 : (⟨S1x64, .f32⟩ : BufTy).Contents (Elt F) → (⟨S32768x64, .f32⟩ : BufTy).Contents (Elt F)),
    binary main_v174 main_v176 main_v177 (addf : (⟨S32768x64, .f32⟩ : BufTy).Contents (Elt F) → (⟨S32768x64, .f32⟩ : BufTy).Contents (Elt F) → (⟨S32768x64, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S32768x64, .f32⟩) main_call12_v0) (broadcastInDim S32768x64 ![] bcast_S_S32768x64),
    TRef.binary (TRef.of (T := ⟨S32768x64, .f32⟩) main_v177) (TRef.of (T := ⟨S32768x64, .f32⟩) main_call12_v0) (TRef.of (T := ⟨S32768x64, .f32⟩) main_v178) maximumf ]

theorem opsL2_sub : (opsL2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL2_fresh : (opsL2 : List (HloOp τ sig (Elt F))).Forall fun op => op.fresh = ∅ := by
  simp only [List.Forall]; repeat' constructor

theorem opsL2_keep {V : Valuation τ sig (Elt F)} {X} (k : Holds argRefs X V) : Holds argRefs X (after opsL2 V) :=
  k.keep opsL2 (by
    simp only [List.Forall, nullary_writes, unary_writes, binary_writes, ternary_writes, reshape_writes, nary_writes, Finset.mem_singleton,
      (Proc.devRef_injective _).eq_iff]
    and_intros <;> decide)

theorem L2_res {V : Valuation τ sig (Elt F)} {X} (k : Holds argRefs X V)
    (h : V (Proc.devRef .tc main_v149) = val_main_v149 (F := F) (X main_arg3) (X main_arg4) (X main_arg5) (X main_arg6) (X main_arg7) (X main_arg8) (X main_arg12) (X main_arg13) (X main_arg14) (X main_arg15) (X main_arg16) (X main_arg17) (X main_arg18) (X main_arg19) (X main_arg20)) :
    after opsL2 V (Proc.devRef .tc main_v178) = val_main_v178 (F := F) (X main_arg2) (X main_arg3) (X main_arg4) (X main_arg5) (X main_arg6) (X main_arg7) (X main_arg8) (X main_arg11) (X main_arg12) (X main_arg13) (X main_arg14) (X main_arg15) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg2 (by decide), k main_arg11 (by decide), k main_arg17 (by decide), k main_arg18 (by decide), k main_arg19 (by decide), k main_arg20 (by decide)]
  rfl

end Cert.ReferenceIdeal.RefRun

end
-- ==== Proof.RefRunL1.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL1 : List (HloOp τ sig (Elt F)) :=
  [ binary main_arg1 main_arg17 main_v179 ((fun l r => Host.dotGeneral dot_S16384x32_S32x64_S16384x64_1_0_0_1_n_n none l r) : (⟨S16384x32, .f32⟩ : BufTy).Contents (Elt F) → (⟨S32x64, .f32⟩ : BufTy).Contents (Elt F) → (⟨S16384x64, .f32⟩ : BufTy).Contents (Elt F)),
    unary main_arg18 main_v180 (broadcastInDim S1x64 ![1] bcast_S64_S1x64_1 : (⟨S64, .f32⟩ : BufTy).Contents (Elt F) → (⟨S1x64, .f32⟩ : BufTy).Contents (Elt F)),
    unary main_v180 main_v181 (broadcastInDim S16384x64 ![0, 1] bcast_S1x64_S16384x64_0_1 : (⟨S1x64, .f32⟩ : BufTy).Contents (Elt F) → (⟨S16384x64, .f32⟩ : BufTy).Contents (Elt F)),
    binary main_v179 main_v181 main_v182 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S16384x64, .f32⟩) main_call13_v0) (broadcastInDim S16384x64 ![] bcast_S_S16384x64),
    TRef.binary (TRef.of (T := ⟨S16384x64, .f32⟩) main_v182) (TRef.of (T := ⟨S16384x64, .f32⟩) main_call13_v0) (TRef.of (T := ⟨S16384x64, .f32⟩) main_v183) maximumf,
    unary main_arg10 main_v184 ((extractStridedSlice S16384x1 ![0, 0] · slices_S16384x2_S16384x1_0_0) : (⟨S16384x2, .i32⟩ : BufTy).Contents (Elt F) → (⟨S16384x1, .i32⟩ : BufTy).Contents (Elt F)),
    reshape main_v184 main_v185 rfl shapeCasts_S16384x1_S16384,
    nullary main_c_23 (constantI S_ 32 0#32),
    unary main_c_23 main_v186 (broadcastInDim S16384 ![] bcast_S_S16384 : (⟨S_, .i32⟩ : BufTy).Contents (Elt F) → (⟨S16384, .i32⟩ : BufTy).Contents (Elt F)),
    binary main_v185 main_v186 main_v187 (cmpi .slt : (⟨S16384, .i32⟩ : BufTy).Contents (Elt F) → (⟨S16384, .i32⟩ : BufTy).Contents (Elt F) → (⟨S16384, .i1⟩ : BufTy).Contents (Elt F)),
    nullary main_c_24 (constantI S_ 32 32768#32),
    unary main_c_24 main_v188 (broadcastInDim S16384 ![] bcast_S_S16384 : (⟨S_, .i32⟩ : BufTy).Contents (Elt F) → (⟨S16384, .i32⟩ : BufTy).Contents (Elt F)),
    binary main_v185 main_v188 main_v189 (addi : (⟨S16384, .i32⟩ : BufTy).Contents (Elt F) → (⟨S16384, .i32⟩ : BufTy).Contents (Elt F) → (⟨S16384, .i32⟩ : BufTy).Contents (Elt F)),
    ternary main_v187 main_v189 main_v185 main_v190 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v190 main_v191 (broadcastInDim S16384x1 ![0] bcast_S16384_S16384x1_0 : (⟨S16384, .i32⟩ : BufTy).Contents (Elt F) → (⟨S16384x1, .i32⟩ : BufTy).Contents (Elt F)),
    binary main_v178 main_v191 main_v192 ((fun x i => Host.gather gather_S32768x64_S16384x1_S16384x64_1_0_n_n_0_1_164 x i) : (⟨S32768x64, .f32⟩ : BufTy).Contents (Elt F) → (⟨S16384x1, .i32⟩ : BufTy).Contents (Elt F) → (⟨S16384x64, .f32⟩ : BufTy).Contents (Elt F)),
    unary main_arg10 main_v193 ((extractStridedSlice S16384x1 ![0, 1] · slices_S16384x2_S16384x1_0_1) : (⟨S16384x2, .i32⟩ : BufTy).Contents (Elt F) → (⟨S16384x1, .i32⟩ : BufTy).Contents (Elt F)),
    reshape main_v193 main_v194 rfl shapeCasts_S16384x1_S16384,
    nullary main_c_25 (constantI S_ 32 0#32),
    unary main_c_25 main_v195 (broadcastInDim S16384 ![] bcast_S_S16384 : (⟨S_, .i32⟩ : BufTy).Contents (Elt F) → (⟨S16384, .i32⟩ : BufTy).Contents (Elt F)),
    binary main_v194 main_v195 main_v196 (cmpi .slt : (⟨S16384, .i32⟩ : BufTy).Contents (Elt F) → (⟨S16384, .i32⟩ : BufTy).Contents (Elt F) → (⟨S16384, .i1⟩ : BufTy).Contents (Elt F)),
    nullary main_c_26 (constantI S_ 32 32768#32),
    unary main_c_26 main_v197 (broadcastInDim S16384 ![] bcast_S_S16384 : (⟨S_, .i32⟩ : BufTy).Contents (Elt F) → (⟨S16384, .i32⟩ : BufTy).Contents (Elt F)),
    binary main_v194 main_v197 main_v198 (addi : (⟨S16384, .i32⟩ : BufTy).Contents (Elt F) → (⟨S16384, .i32⟩ : BufTy).Contents (Elt F) → (⟨S16384, .i32⟩ : BufTy).Contents (Elt F)),
    ternary main_v196 main_v198 main_v194 main_v199 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v199 main_v200 (broadcastInDim S16384x1 ![0] bcast_S16384_S16384x1_0 : (⟨S16384, .i32⟩ : BufTy).Contents (Elt F) → (⟨S16384x1, .i32⟩ : BufTy).Contents (Elt F)),
    binary main_v178 main_v200 main_v201 ((fun x i => Host.gather gather_S32768x64_S16384x1_S16384x64_1_0_n_n_0_1_164 x i) : (⟨S32768x64, .f32⟩ : BufTy).Contents (Elt F) → (⟨S16384x1, .i32⟩ : BufTy).Contents (Elt F) → (⟨S16384x64, .f32⟩ : BufTy).Contents (Elt F)),
    nary ![main_v192, main_v201, main_v183] main_v202 (fun u => concatenate S16384x192 1 [⟨S16384x64, u 0⟩, ⟨S16384x64, u 1⟩, ⟨S16384x64, u 2⟩] concatenates_S16384x64_S16384x64_S16384x64_S16384x192_d1),
    binary main_v202 main_arg19 main_v203 ((fun l r => Host.dotGeneral dot_S16384x192_S192x64_S16384x64_1_0_0_1_n_n none l r) : (⟨S16384x192, .f32⟩ : BufTy).Contents (Elt F) → (⟨S192x64, .f32⟩ : BufTy).Contents (Elt F) → (⟨S16384x64, .f32⟩ : BufTy).Contents (Elt F)),
    unary main_arg20 main_v204 (broadcastInDim S1x64 ![1] bcast_S64_S1x64_1 : (⟨S64, .f32⟩ : BufTy).Contents (Elt F) → (⟨S1x64, .f32⟩ : BufTy).Contents (Elt F)),
    unary main_v204 main_v205 (broadcastInDim S16384x64 ![0, 1] bcast_S1x64_S16384x64_0_1 : (⟨S1x64, .f32⟩ : BufTy).Contents (Elt F) → (⟨S16384x64, .f32⟩ : BufTy).Contents (Elt F)),
    binary main_v203 main_v205 main_v206 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S16384x64, .f32⟩) main_call14_v0) (broadcastInDim S16384x64 ![] bcast_S_S16384x64),
    TRef.binary (TRef.of (T := ⟨S16384x64, .f32⟩) main_v206) (TRef.of (T := ⟨S16384x64, .f32⟩) main_call14_v0) (TRef.of (T := ⟨S16384x64, .f32⟩) main_v207) maximumf ]

theorem opsL1_sub : (opsL1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL1_fresh : (opsL1 : List (HloOp τ sig (Elt F))).Forall fun op => op.fresh = ∅ := by
  simp only [List.Forall]; repeat' constructor

theorem opsL1_keep {V : Valuation τ sig (Elt F)} {X} (k : Holds argRefs X V) : Holds argRefs X (after opsL1 V) :=
  k.keep opsL1 (by
    simp only [List.Forall, nullary_writes, unary_writes, binary_writes, ternary_writes, reshape_writes, nary_writes, Finset.mem_singleton,
      (Proc.devRef_injective _).eq_iff]
    and_intros <;> decide)

theorem L1_res {V : Valuation τ sig (Elt F)} {X} (k : Holds argRefs X V)
    (h : V (Proc.devRef .tc main_v178) = val_main_v178 (F := F) (X main_arg2) (X main_arg3) (X main_arg4) (X main_arg5) (X main_arg6) (X main_arg7) (X main_arg8) (X main_arg11) (X main_arg12) (X main_arg13) (X main_arg14) (X main_arg15) (X main_arg16) (X main_arg17) (X main_arg18) (X main_arg19) (X main_arg20)) :
    after opsL1 V (Proc.devRef .tc main_v207) = val_main_v207 (F := F) (X main_arg1) (X main_arg2) (X main_arg3) (X main_arg4) (X main_arg5) (X main_arg6) (X main_arg7) (X main_arg8) (X main_arg10) (X main_arg11) (X main_arg12) (X main_arg13) (X main_arg14) (X main_arg15) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg1 (by decide), k main_arg10 (by decide), k main_arg17 (by decide), k main_arg18 (by decide), k main_arg19 (by decide), k main_arg20 (by decide)]
  rfl

end Cert.ReferenceIdeal.RefRun

end
-- ==== Proof.RefRunL0.lean ====
import proofs.«426877_j670014898785_2_alg».proof.Proof.RefStages
import proofs.«426877_j670014898785_2_alg».proof.Proof.RefRunLib

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

abbrev opsL0 : List (HloOp τ sig (Elt F)) :=
  [ binary main_arg0 main_arg17 main_v208 ((fun l r => Host.dotGeneral dot_S8192x32_S32x64_S8192x64_1_0_0_1_n_n none l r) : (⟨S8192x32, .f32⟩ : BufTy).Contents (Elt F) → (⟨S32x64, .f32⟩ : BufTy).Contents (Elt F) → (⟨S8192x64, .f32⟩ : BufTy).Contents (Elt F)),
    unary main_arg18 main_v209 (broadcastInDim S1x64 ![1] bcast_S64_S1x64_1 : (⟨S64, .f32⟩ : BufTy).Contents (Elt F) → (⟨S1x64, .f32⟩ : BufTy).Contents (Elt F)),
    unary main_v209 main_v210 (broadcastInDim S8192x64 ![0, 1] bcast_S1x64_S8192x64_0_1 : (⟨S1x64, .f32⟩ : BufTy).Contents (Elt F) → (⟨S8192x64, .f32⟩ : BufTy).Contents (Elt F)),
    binary main_v208 main_v210 main_v211 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S8192x64, .f32⟩) main_call15_v0) (broadcastInDim S8192x64 ![] bcast_S_S8192x64),
    TRef.binary (TRef.of (T := ⟨S8192x64, .f32⟩) main_v211) (TRef.of (T := ⟨S8192x64, .f32⟩) main_call15_v0) (TRef.of (T := ⟨S8192x64, .f32⟩) main_v212) maximumf,
    unary main_arg9 main_v213 ((extractStridedSlice S8192x1 ![0, 0] · slices_S8192x2_S8192x1_0_0) : (⟨S8192x2, .i32⟩ : BufTy).Contents (Elt F) → (⟨S8192x1, .i32⟩ : BufTy).Contents (Elt F)),
    reshape main_v213 main_v214 rfl shapeCasts_S8192x1_S8192,
    nullary main_c_27 (constantI S_ 32 0#32),
    unary main_c_27 main_v215 (broadcastInDim S8192 ![] bcast_S_S8192 : (⟨S_, .i32⟩ : BufTy).Contents (Elt F) → (⟨S8192, .i32⟩ : BufTy).Contents (Elt F)),
    binary main_v214 main_v215 main_v216 (cmpi .slt : (⟨S8192, .i32⟩ : BufTy).Contents (Elt F) → (⟨S8192, .i32⟩ : BufTy).Contents (Elt F) → (⟨S8192, .i1⟩ : BufTy).Contents (Elt F)),
    nullary main_c_28 (constantI S_ 32 16384#32),
    unary main_c_28 main_v217 (broadcastInDim S8192 ![] bcast_S_S8192 : (⟨S_, .i32⟩ : BufTy).Contents (Elt F) → (⟨S8192, .i32⟩ : BufTy).Contents (Elt F)),
    binary main_v214 main_v217 main_v218 (addi : (⟨S8192, .i32⟩ : BufTy).Contents (Elt F) → (⟨S8192, .i32⟩ : BufTy).Contents (Elt F) → (⟨S8192, .i32⟩ : BufTy).Contents (Elt F)),
    ternary main_v216 main_v218 main_v214 main_v219 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v219 main_v220 (broadcastInDim S8192x1 ![0] bcast_S8192_S8192x1_0 : (⟨S8192, .i32⟩ : BufTy).Contents (Elt F) → (⟨S8192x1, .i32⟩ : BufTy).Contents (Elt F)),
    binary main_v207 main_v220 main_v221 ((fun x i => Host.gather gather_S16384x64_S8192x1_S8192x64_1_0_n_n_0_1_164 x i) : (⟨S16384x64, .f32⟩ : BufTy).Contents (Elt F) → (⟨S8192x1, .i32⟩ : BufTy).Contents (Elt F) → (⟨S8192x64, .f32⟩ : BufTy).Contents (Elt F)),
    unary main_arg9 main_v222 ((extractStridedSlice S8192x1 ![0, 1] · slices_S8192x2_S8192x1_0_1) : (⟨S8192x2, .i32⟩ : BufTy).Contents (Elt F) → (⟨S8192x1, .i32⟩ : BufTy).Contents (Elt F)),
    reshape main_v222 main_v223 rfl shapeCasts_S8192x1_S8192,
    nullary main_c_29 (constantI S_ 32 0#32),
    unary main_c_29 main_v224 (broadcastInDim S8192 ![] bcast_S_S8192 : (⟨S_, .i32⟩ : BufTy).Contents (Elt F) → (⟨S8192, .i32⟩ : BufTy).Contents (Elt F)),
    binary main_v223 main_v224 main_v225 (cmpi .slt : (⟨S8192, .i32⟩ : BufTy).Contents (Elt F) → (⟨S8192, .i32⟩ : BufTy).Contents (Elt F) → (⟨S8192, .i1⟩ : BufTy).Contents (Elt F)),
    nullary main_c_30 (constantI S_ 32 16384#32),
    unary main_c_30 main_v226 (broadcastInDim S8192 ![] bcast_S_S8192 : (⟨S_, .i32⟩ : BufTy).Contents (Elt F) → (⟨S8192, .i32⟩ : BufTy).Contents (Elt F)),
    binary main_v223 main_v226 main_v227 (addi : (⟨S8192, .i32⟩ : BufTy).Contents (Elt F) → (⟨S8192, .i32⟩ : BufTy).Contents (Elt F) → (⟨S8192, .i32⟩ : BufTy).Contents (Elt F)),
    ternary main_v225 main_v227 main_v223 main_v228 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v228 main_v229 (broadcastInDim S8192x1 ![0] bcast_S8192_S8192x1_0 : (⟨S8192, .i32⟩ : BufTy).Contents (Elt F) → (⟨S8192x1, .i32⟩ : BufTy).Contents (Elt F)),
    binary main_v207 main_v229 main_v230 ((fun x i => Host.gather gather_S16384x64_S8192x1_S8192x64_1_0_n_n_0_1_164 x i) : (⟨S16384x64, .f32⟩ : BufTy).Contents (Elt F) → (⟨S8192x1, .i32⟩ : BufTy).Contents (Elt F) → (⟨S8192x64, .f32⟩ : BufTy).Contents (Elt F)),
    nary ![main_v221, main_v230, main_v212] main_v231 (fun u => concatenate S8192x192 1 [⟨S8192x64, u 0⟩, ⟨S8192x64, u 1⟩, ⟨S8192x64, u 2⟩] concatenates_S8192x64_S8192x64_S8192x64_S8192x192_d1),
    binary main_v231 main_arg19 main_v232 ((fun l r => Host.dotGeneral dot_S8192x192_S192x64_S8192x64_1_0_0_1_n_n none l r) : (⟨S8192x192, .f32⟩ : BufTy).Contents (Elt F) → (⟨S192x64, .f32⟩ : BufTy).Contents (Elt F) → (⟨S8192x64, .f32⟩ : BufTy).Contents (Elt F)),
    unary main_arg20 main_v233 (broadcastInDim S1x64 ![1] bcast_S64_S1x64_1 : (⟨S64, .f32⟩ : BufTy).Contents (Elt F) → (⟨S1x64, .f32⟩ : BufTy).Contents (Elt F)),
    unary main_v233 main_v234 (broadcastInDim S8192x64 ![0, 1] bcast_S1x64_S8192x64_0_1 : (⟨S1x64, .f32⟩ : BufTy).Contents (Elt F) → (⟨S8192x64, .f32⟩ : BufTy).Contents (Elt F)),
    binary main_v232 main_v234 main_v235 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S8192x64, .f32⟩) main_call16_v0) (broadcastInDim S8192x64 ![] bcast_S_S8192x64),
    TRef.binary (TRef.of (T := ⟨S8192x64, .f32⟩) main_v235) (TRef.of (T := ⟨S8192x64, .f32⟩) main_call16_v0) (TRef.of (T := ⟨S8192x64, .f32⟩) main_v236) maximumf ]

theorem opsL0_sub : (opsL0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem opsL0_fresh : (opsL0 : List (HloOp τ sig (Elt F))).Forall fun op => op.fresh = ∅ := by
  simp only [List.Forall]; repeat' constructor

theorem opsL0_keep {V : Valuation τ sig (Elt F)} {X} (k : Holds argRefs X V) : Holds argRefs X (after opsL0 V) :=
  k.keep opsL0 (by
    simp only [List.Forall, nullary_writes, unary_writes, binary_writes, ternary_writes, reshape_writes, nary_writes, Finset.mem_singleton,
      (Proc.devRef_injective _).eq_iff]
    and_intros <;> decide)

theorem L0_res {V : Valuation τ sig (Elt F)} {X} (k : Holds argRefs X V)
    (h : V (Proc.devRef .tc main_v207) = val_main_v207 (F := F) (X main_arg1) (X main_arg2) (X main_arg3) (X main_arg4) (X main_arg5) (X main_arg6) (X main_arg7) (X main_arg8) (X main_arg10) (X main_arg11) (X main_arg12) (X main_arg13) (X main_arg14) (X main_arg15) (X main_arg16) (X main_arg17) (X main_arg18) (X main_arg19) (X main_arg20)) :
    after opsL0 V (Proc.devRef .tc main_v236) = val_main_v236 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) (X main_arg15) (X main_arg16) (X main_arg17) (X main_arg18) (X main_arg19) (X main_arg20) := by
  simp (disch := decide) only [after_cons, after_nil, nullary_result', unary_result', binary_result', ternary_result', reshape_result',
    nary3_result', nullary_result_ne', unary_result_ne', binary_result_ne', ternary_result_ne', reshape_result_ne', nary_result_ne']
  rw [h, k main_arg0 (by decide), k main_arg9 (by decide), k main_arg17 (by decide), k main_arg18 (by decide), k main_arg19 (by decide), k main_arg20 (by decide)]
  rfl

end Cert.ReferenceIdeal.RefRun

end
-- ==== Proof.RefRunMain.lean ====
import proofs.«426877_j670014898785_2_alg».proof.Proof.RefRunL8
import proofs.«426877_j670014898785_2_alg».proof.Proof.RefRunL7
import proofs.«426877_j670014898785_2_alg».proof.Proof.RefRunL6
import proofs.«426877_j670014898785_2_alg».proof.Proof.RefRunL5
import proofs.«426877_j670014898785_2_alg».proof.Proof.RefRunL4
import proofs.«426877_j670014898785_2_alg».proof.Proof.RefRunL3
import proofs.«426877_j670014898785_2_alg».proof.Proof.RefRunL2
import proofs.«426877_j670014898785_2_alg».proof.Proof.RefRunL1
import proofs.«426877_j670014898785_2_alg».proof.Proof.RefRunL0
import Idealize.ShloMosaic.Lib.Pipeline.Regions

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo Idealize.ShloMosaic.Pipeline

variable {F : FTy → Type} [FloatOps F]

abbrev opsAll : List (HloOp τ sig (Elt F)) := opsL8 ++ (opsL7 ++ (opsL6 ++ (opsL5 ++ (opsL4 ++ (opsL3 ++ (opsL2 ++ (opsL1 ++ opsL0)))))))

theorem main_eq (c : Dev nD) : main (F := F) c = seq opsAll := by chain_rfl

theorem scopedRefs_eq : (Finset.univ.filter fun b : Ref sig .tc => b.isScoped) = ∅ := by decide
theorem scopedSems_eq : (Finset.univ.filter fun sm : SemLoc sig => sm.isScoped .tc) = ∅ := by decide

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsAll (launchContents m c) (Proc.devRef .tc b) :=
  run_seq scopedRefs_eq scopedSems_eq defs main (fun _ => opsAll) main_eq
    (fun _ => List.forall_append.2 ⟨opsL8_sub, List.forall_append.2 ⟨opsL7_sub, List.forall_append.2 ⟨opsL6_sub, List.forall_append.2 ⟨opsL5_sub, List.forall_append.2 ⟨opsL4_sub, List.forall_append.2 ⟨opsL3_sub, List.forall_append.2 ⟨opsL2_sub, List.forall_append.2 ⟨opsL1_sub, opsL0_sub⟩⟩⟩⟩⟩⟩⟩⟩) m ρ
    (fun _ => List.forall_iff_forall_mem.1 (List.forall_append.2 ⟨opsL8_fresh, List.forall_append.2 ⟨opsL7_fresh, List.forall_append.2 ⟨opsL6_fresh, List.forall_append.2 ⟨opsL5_fresh, List.forall_append.2 ⟨opsL4_fresh, List.forall_append.2 ⟨opsL3_fresh, List.forall_append.2 ⟨opsL2_fresh, List.forall_append.2 ⟨opsL1_fresh, opsL0_fresh⟩⟩⟩⟩⟩⟩⟩⟩))

end Cert.ReferenceIdeal.RefRun

end
-- ==== Proof.RefRun.lean ====
import proofs.«426877_j670014898785_2_alg».proof.Proof.RefRunMain

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Level by level, each on the level below at its stage: after the whole line the result buffer holds the last stage of what the arguments held, and they still hold it. -/
theorem res_all {V : Valuation τ sig (Elt F)} {X} (k : Holds argRefs X V) :
    after opsAll V (Proc.devRef .tc main_v236) = val_main_v236 (F := F) (X main_arg0) (X main_arg1) (X main_arg2) (X main_arg3) (X main_arg4) (X main_arg5) (X main_arg6) (X main_arg7) (X main_arg8) (X main_arg9) (X main_arg10) (X main_arg11) (X main_arg12) (X main_arg13) (X main_arg14) (X main_arg15) (X main_arg16) (X main_arg17) (X main_arg18) (X main_arg19) (X main_arg20)
      ∧ Holds argRefs X (after opsAll V) := by
  rw [StableHlo.after_append opsL8, StableHlo.after_append opsL7, StableHlo.after_append opsL6, StableHlo.after_append opsL5, StableHlo.after_append opsL4,
    StableHlo.after_append opsL3, StableHlo.after_append opsL2, StableHlo.after_append opsL1]
  have k8 := opsL8_keep k
  have k7 := opsL7_keep k8
  have k6 := opsL6_keep k7
  have k5 := opsL5_keep k6
  have k4 := opsL4_keep k5
  have k3 := opsL3_keep k4
  have k2 := opsL2_keep k3
  have k1 := opsL1_keep k2
  exact ⟨L0_res k1 (L1_res k2 (L2_res k3 (L3_res k4 (L4_res k5 (L5_res k6 (L6_res k7 (L7_res k8 (L8_res k)))))))), opsL0_keep k1⟩

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v236)
          = Cert.ReferenceIdeal.ReadP.val_main_v236 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun s h c =>
    have ⟨a, b⟩ := res_all (V := launchContents m c) (X := fun r => launchContents m c (Proc.devRef .tc r)) fun _ _ => rfl
    have b' : ∀ r ∈ argRefs, s.2.mem ((c.tc : Thread nD τ).loc r) = m ((c.tc : Thread nD τ).loc r) := fun r hr => (h c r).trans (b r hr)
    ⟨(h c main_v236).trans a, b' main_arg0 (by decide), b' main_arg1 (by decide), b' main_arg2 (by decide), b' main_arg3 (by decide), b' main_arg4 (by decide), b' main_arg5 (by decide), b' main_arg6 (by decide), b' main_arg7 (by decide), b' main_arg8 (by decide), b' main_arg9 (by decide), b' main_arg10 (by decide), b' main_arg11 (by decide), b' main_arg12 (by decide), b' main_arg13 (by decide), b' main_arg14 (by decide), b' main_arg15 (by decide), b' main_arg16 (by decide), b' main_arg17 (by decide), b' main_arg18 (by decide), b' main_arg19 (by decide), b' main_arg20 (by decide)⟩)
    (run_all m ρ)

end Cert.ReferenceIdeal.RefRun

end
-- ==== Proof.RefLevelLib.lean ====
import Idealize.ShloMosaic.PureOps.Ideal.Laws
import Idealize.ShloMosaic.PureOps.ShapeOps
import Idealize.ShloMosaic.Lib.ValueIdx
import Idealize.ShloMosaic.Lib.Pipeline.Value
import proofs.«426877_j670014898785_2_alg».proof.Proof.Spec
import Idealize.ShloMosaic.Lib.StackMember

noncomputable section

namespace Cert.RefLevelLib

open Idealize.ShloMosaic Idealize.ShloMosaic.ValueIdx Cert.Tree

section Gather

variable {α : Type} {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1)

include hoff hcoll hob hsim hivd

/-- A row gather at (e, j): column j of the row at e's start word, read signed and clamped into range. -/
theorem gather_apply_clamp (x : (⟨2, ![N, C]⟩ : Shape).Idx → α) (idx : IVec ⟨2, ![M, 1]⟩ w) (e : Fin M) (j : Fin C)
    (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- Gathered from a table at a start word that is a wrapped child word, row e is the child's row. -/
theorem gather_childRow {T : (⟨2, ![N, C]⟩ : Shape).Idx → α} {prev : Fin N → Fin C → α} (hT : T = tab2 prev)
    (hN : 0 < N) (mw : BitVec 32) {idx : IVec ⟨2, ![M, 1]⟩ 32} {v : BitVec 32} (e : Fin M)
    (hi : idx (ix2 e 0) = wrapWord mw v) :
    (fun j => Host.gather d T idx (ix2 e j)) = prev (childRow N hN mw v) := by
  funext j
  rw [gather_apply_clamp d hoff hcoll hob hsim hivd _ _ e j hN, hT]
  exact congrArg (fun k => prev k j) (Fin.ext (congrArg (fun u : BitVec 32 => min u.toInt.toNat (N - 1)) hi))

end Gather

/-- Three 64-column blocks side by side, read at (r, q): column q of the row [a r | b r | c r]. -/
theorem concat3_apply {n : Nat}
    (h : Shape.Concatenates ([(⟨2, ![n, 64]⟩ : Shape), ⟨2, ![n, 64]⟩, ⟨2, ![n, 64]⟩]) ⟨2, ![n, 192]⟩ 1)
    (a b c : (⟨2, ![n, 64]⟩ : Shape).Idx → EReal) (r : Fin n) (q : Fin 192) :
    concatenate (⟨2, ![n, 192]⟩ : Shape) 1 [⟨⟨2, ![n, 64]⟩, a⟩, ⟨⟨2, ![n, 64]⟩, b⟩, ⟨⟨2, ![n, 64]⟩, c⟩] h (ix2 r q)
      = hcat (fun j => a (ix2 r j)) (fun j => b (ix2 r j)) (fun j => c (ix2 r j)) q := by
  have side : ∀ (j : Fin 64) (ax : Fin 2), ax ≠ 1 →
      ((ix2 r j : (⟨2, ![n, 64]⟩ : Shape).Idx) ax).val = ((ix2 r q : (⟨2, ![n, 192]⟩ : Shape).Idx) ax).val :=
    fun j ax hax => match ax, hax with
      | ⟨0, _⟩, _ => rfl
      | ⟨1, _⟩, hax => absurd rfl hax
  have piece := concatenate_apply_piece (t := ⟨2, ![n, 192]⟩) (1 : Fin 2)
    [⟨⟨2, ![n, 64]⟩, a⟩, ⟨⟨2, ![n, 64]⟩, b⟩, ⟨⟨2, ![n, 64]⟩, c⟩] h (ix2 r q)
  unfold hcat
  by_cases h1 : q.val < 64
  · rw [dif_pos h1]
    exact piece 0 (Nat.zero_lt_succ _) _ a rfl rfl 0 rfl (ix2 r ⟨q.val, h1⟩) (side _) (Nat.zero_add _)
  · rw [dif_neg h1]
    by_cases h2 : q.val < 128
    · rw [dif_pos h2]
      exact piece 1 (Nat.succ_lt_succ (Nat.zero_lt_succ _)) _ b rfl rfl 64 rfl (ix2 r ⟨q.val - 64, by omega⟩) (side _)
        (by show 64 + (q.val - 64) = q.val; omega)
    · rw [dif_neg h2]
      exact piece 2 (Nat.succ_lt_succ (Nat.succ_lt_succ (Nat.zero_lt_succ _))) _ c rfl rfl 128 rfl (ix2 r ⟨q.val - 128, by omega⟩) (side _)
        (by show 128 + (q.val - 128) = q.val; omega)

/-- The stage relu(x · W + b) as the program builds it (product, bias laid along the rows, zero spread), at (r, c). -/
theorem fc_stage {n K : Nat} (x : FVec Ideal ⟨2, ![n, K]⟩ .f32) (W : FVec Ideal ⟨2, ![K, 64]⟩ .f32)
    (b : FVec Ideal ⟨1, ![64]⟩ .f32) {h1 : (⟨1, ![64]⟩ : Shape).BroadcastsInDim ⟨2, ![1, 64]⟩ ![1]}
    {h2 : (⟨2, ![1, 64]⟩ : Shape).BroadcastsInDim ⟨2, ![n, 64]⟩ ![0, 1]}
    {h0 : (⟨0, ![]⟩ : Shape).BroadcastsInDim ⟨2, ![n, 64]⟩ ![]} (r : Fin n) (c : Fin 64) :
    maximumf (addf (Host.dotGeneral (DotDims.plain n K 64) none x W)
        (broadcastInDim ⟨2, ![n, 64]⟩ ![0, 1] h2 (broadcastInDim ⟨2, ![1, 64]⟩ ![1] h1 b)))
      (broadcastInDim ⟨2, ![n, 64]⟩ ![] h0 (constant (F := Ideal) ⟨0, ![]⟩ .f32 0#32)) (ix2 r c)
      = (max (∑ k, x (ix2 r k) * W (ix2 k c) + b (ix1 c)) 0 : EReal) := by
  have eb : broadcastInDim ⟨2, ![n, 64]⟩ ![0, 1] h2 (broadcastInDim ⟨2, ![1, 64]⟩ ![1] h1 b) (ix2 r c) = b (ix1 c) :=
    (broadcastInDim_apply _ h2 _ (ix2 r c) (ix2 0 c) fun a => match a with
      | ⟨0, _⟩ => by show 0 = if (1 : Nat) = 1 then 0 else r.val; rw [if_pos rfl]
      | ⟨1, _⟩ => by show c.val = if (64 : Nat) = 1 then 0 else c.val; rw [if_neg (by decide)]).trans
    (broadcastInDim_apply _ h1 b (ix2 0 c) (ix1 c) fun a => match a with
      | ⟨0, _⟩ => by show c.val = if (64 : Nat) = 1 then 0 else c.val; rw [if_neg (by decide)])
  have e0 : broadcastInDim ⟨2, ![n, 64]⟩ ![] h0 (constant (F := Ideal) ⟨0, ![]⟩ .f32 0#32) (ix2 r c) = (0 : EReal) :=
    (broadcastInDim_apply _ h0 _ (ix2 r c) (fun a => a.elim0) fun a => a.elim0).trans Ideal.ofBits_zero_f32
  exact congrArg₂ max (congrArg₂ HAdd.hAdd (StackMember.dotGeneral_plain_apply none x W r c) eb) e0

/-- The start-word column as the program builds it (column o of the children array, a negative word moved up by mw), at row r. -/
theorem wrap_stage {n o : Nat} (ho : o < 2) (mw : BitVec 32) (ch : IVec ⟨2, ![n, 2]⟩ 32)
    {hs : (⟨2, ![n, 2]⟩ : Shape).Slices ![0, o] ⟨2, ![n, 1]⟩} {hc : (⟨2, ![n, 1]⟩ : Shape).ShapeCasts ⟨1, ![n]⟩}
    {h0 : (⟨0, ![]⟩ : Shape).BroadcastsInDim ⟨1, ![n]⟩ ![]} {hb : (⟨1, ![n]⟩ : Shape).BroadcastsInDim ⟨2, ![n, 1]⟩ ![0]}
    (r : Fin n) :
    broadcastInDim ⟨2, ![n, 1]⟩ ![0] hb
      (select (cmpi .slt (shapeCast ⟨1, ![n]⟩ (extractStridedSlice ⟨2, ![n, 1]⟩ ![0, o] ch hs) hc)
          (broadcastInDim ⟨1, ![n]⟩ ![] h0 (constantI ⟨0, ![]⟩ 32 0#32)))
        (addi (shapeCast ⟨1, ![n]⟩ (extractStridedSlice ⟨2, ![n, 1]⟩ ![0, o] ch hs) hc)
          (broadcastInDim ⟨1, ![n]⟩ ![] h0 (constantI ⟨0, ![]⟩ 32 mw)))
        (shapeCast ⟨1, ![n]⟩ (extractStridedSlice ⟨2, ![n, 1]⟩ ![0, o] ch hs) hc)) (ix2 r 0)
      = wrapWord mw (ch (ix2 r ⟨o, ho⟩)) := by
  have ev : shapeCast ⟨1, ![n]⟩ (extractStridedSlice ⟨2, ![n, 1]⟩ ![0, o] ch hs) hc (ix1 r) = ch (ix2 r ⟨o, ho⟩) :=
    (shapeCast_apply _ hc (ix1 r) (ix2 r 0) (by
      rewrite [Shape.rowMajor_val_two, Shape.rowMajor_val_one]; show r.val * 1 + 0 = r.val; omega)).trans
    (extractStridedSlice_apply _ ch hs (ix2 r 0) (ix2 r ⟨o, ho⟩) fun a => match a with
      | ⟨0, _⟩ => (Nat.zero_add _).symm
      | ⟨1, _⟩ => rfl)
  have ec : ∀ w : BitVec 32, broadcastInDim ⟨1, ![n]⟩ ![] h0 (constantI ⟨0, ![]⟩ 32 w) (ix1 r) = w := fun w =>
    broadcastInDim_apply _ h0 _ (ix1 r) (fun a => a.elim0) fun a => a.elim0
  refine (broadcastInDim_apply _ hb _ (ix2 r 0) (ix1 r) fun a => match a with
    | ⟨0, _⟩ => by
      show r.val = if n = 1 then 0 else r.val
      by_cases h : n = 1
      · rw [if_pos h]; have := r.isLt; omega
      · rw [if_neg h]).trans ?_
  show Scalar.select (IntOp.cmpi .slt (shapeCast _ _ hc (ix1 r)) (broadcastInDim _ _ h0 _ (ix1 r)))
    (IntOp.addi (shapeCast _ _ hc (ix1 r)) (broadcastInDim _ _ h0 _ (ix1 r))) (shapeCast _ _ hc (ix1 r)) = _
  rw [ev, ec, ec]
  rfl

/-- A stage reading as relu(cat · Wh + bh), cat joining two row gathers at wrapped child words and a leaf block, is the level. -/
theorem level_read {n m : Nat} {hm : 0 < m} {mw : BitVec 32}
    (d : GatherDims ⟨2, ![m, 64]⟩ ⟨2, ![n, 1]⟩ ⟨2, ![n, 64]⟩)
    (hoff : d.offsetDims = [1]) (hcoll : d.collapsedSliceDims = [0]) (hob : d.operandBatchingDims = [])
    (hsim : d.startIndexMap = [0]) (hivd : d.indexVectorDim = 1)
    (hc : Shape.Concatenates ([(⟨2, ![n, 64]⟩ : Shape), ⟨2, ![n, 64]⟩, ⟨2, ![n, 64]⟩]) ⟨2, ![n, 192]⟩ 1)
    {T : FVec Ideal ⟨2, ![m, 64]⟩ .f32} {prev : Fin m → Fin 64 → EReal} (hT : T = tab2 prev)
    {ch : IVec ⟨2, ![n, 2]⟩ 32} {iL iR : IVec ⟨2, ![n, 1]⟩ 32} {u : FVec Ideal ⟨2, ![n, 64]⟩ .f32}
    {Wh : FVec Ideal ⟨2, ![192, 64]⟩ .f32} {bh : FVec Ideal ⟨1, ![64]⟩ .f32} {E : FVec Ideal ⟨2, ![n, 64]⟩ .f32}
    (hE : ∀ r c, E (ix2 r c) = (max (∑ q, concatenate (⟨2, ![n, 192]⟩ : Shape) 1
      [⟨⟨2, ![n, 64]⟩, Host.gather d T iL⟩, ⟨⟨2, ![n, 64]⟩, Host.gather d T iR⟩, ⟨⟨2, ![n, 64]⟩, u⟩] hc (ix2 r q)
        * Wh (ix2 q c) + bh (ix1 c)) 0 : EReal))
    {x : FVec Ideal ⟨2, ![n, 32]⟩ .f32} {Wu : FVec Ideal ⟨2, ![32, 64]⟩ .f32} {bu : FVec Ideal ⟨1, ![64]⟩ .f32}
    (hu : ∀ r c, u (ix2 r c) = (max (∑ k, x (ix2 r k) * Wu (ix2 k c) + bu (ix1 c)) 0 : EReal))
    (hL : ∀ r, iL (ix2 r 0) = wrapWord mw (ch (ix2 r 0))) (hR : ∀ r, iR (ix2 r 0) = wrapWord mw (ch (ix2 r 1))) :
    E = tab2 (level hm mw (fun r i => x (ix2 r i)) (fun r s => ch (ix2 r s)) prev (fun i j => Wu (ix2 i j))
      (fun j => bu (ix1 j)) (fun q j => Wh (ix2 q j)) (fun j => bh (ix1 j))) := by
  refine eq_tab2 _ _ fun r c => (hE r c).trans ?_
  have hq : ∀ q, concatenate (⟨2, ![n, 192]⟩ : Shape) 1
      [⟨⟨2, ![n, 64]⟩, Host.gather d T iL⟩, ⟨⟨2, ![n, 64]⟩, Host.gather d T iR⟩, ⟨⟨2, ![n, 64]⟩, u⟩] hc (ix2 r q)
      = hcat (prev (childRow m hm mw (ch (ix2 r 0)))) (prev (childRow m hm mw (ch (ix2 r 1))))
          (fcU (fun i => x (ix2 r i)) (fun i j => Wu (ix2 i j)) (fun j => bu (ix1 j))) q := fun q =>
    (concat3_apply hc _ _ _ r q).trans (congrFun (congr (congr (congrArg hcat
      (gather_childRow d hoff hcoll hob hsim hivd hT hm mw r (hL r)))
      (gather_childRow d hoff hcoll hob hsim hivd hT hm mw r (hR r))) (funext (hu r))) q)
  simp only [hq]
  rfl

end Cert.RefLevelLib

end
-- ==== Proof.RefValue.lean ====
import proofs.«426877_j670014898785_2_alg».proof.Proof.RefStages
import proofs.«426877_j670014898785_2_alg».proof.Proof.RefLevelLib

noncomputable section

namespace Cert.ReferenceIdeal.RefVal

open Idealize.ShloMosaic Idealize.ShloMosaic.ValueIdx Cert.ReferenceIdeal Cert.ReferenceIdeal.Gen Cert.ReferenceIdeal.ReadP
  Cert.Tree Cert.RefLevelLib

section

variable {x0 : FVec Ideal S8192x32 .f32} {x1 : FVec Ideal S16384x32 .f32} {x2 : FVec Ideal S32768x32 .f32}
  {x3 : FVec Ideal S65536x32 .f32} {x4 : FVec Ideal S131072x32 .f32} {x5 : FVec Ideal S262144x32 .f32}
  {x6 : FVec Ideal S524288x32 .f32} {x7 : FVec Ideal S1048576x32 .f32} {x8 : FVec Ideal S2097152x32 .f32}
  {x9 : IVec S8192x2 32} {x10 : IVec S16384x2 32} {x11 : IVec S32768x2 32} {x12 : IVec S65536x2 32}
  {x13 : IVec S131072x2 32} {x14 : IVec S262144x2 32} {x15 : IVec S524288x2 32} {x16 : IVec S1048576x2 32}
  {x17 : FVec Ideal S32x64 .f32} {x18 : FVec Ideal S64 .f32} {x19 : FVec Ideal S192x64 .f32} {x20 : FVec Ideal S64 .f32}

/-- The leaf stage is the leaf table. -/
theorem ref_emb8 : val_main_v4 (F := Ideal) x8 x17 x18
    = tab2 (emb8 (inputsOf x0 x1 x2 x3 x4 x5 x6 x7 x8 x9 x10 x11 x12 x13 x14 x15 x16 x17 x18 x19 x20)) :=
  eq_tab2 _ _ (fc_stage x8 x17 x18)

/-- An inner stage is the level of the recurrence over the table below. -/
theorem ref_emb7 : val_main_v33 (F := Ideal) x7 x8 x16 x17 x18 x19 x20
    = tab2 (emb7 (inputsOf x0 x1 x2 x3 x4 x5 x6 x7 x8 x9 x10 x11 x12 x13 x14 x15 x16 x17 x18 x19 x20)) :=
  level_read gather_S2097152x64_S1048576x1_S1048576x64_1_0_n_n_0_1_164 rfl rfl rfl rfl rfl
    concatenates_S1048576x64_S1048576x64_S1048576x64_S1048576x192_d1 ref_emb8
    (fc_stage _ x19 x20) (fc_stage x7 x17 x18) (wrap_stage (by decide) _ x16) (wrap_stage (by decide) _ x16)

theorem ref_emb6 : val_main_v62 (F := Ideal) x6 x7 x8 x15 x16 x17 x18 x19 x20
    = tab2 (emb6 (inputsOf x0 x1 x2 x3 x4 x5 x6 x7 x8 x9 x10 x11 x12 x13 x14 x15 x16 x17 x18 x19 x20)) :=
  level_read gather_S1048576x64_S524288x1_S524288x64_1_0_n_n_0_1_164 rfl rfl rfl rfl rfl
    concatenates_S524288x64_S524288x64_S524288x64_S524288x192_d1 ref_emb7
    (fc_stage _ x19 x20) (fc_stage x6 x17 x18) (wrap_stage (by decide) _ x15) (wrap_stage (by decide) _ x15)

theorem ref_emb5 : val_main_v91 (F := Ideal) x5 x6 x7 x8 x14 x15 x16 x17 x18 x19 x20
    = tab2 (emb5 (inputsOf x0 x1 x2 x3 x4 x5 x6 x7 x8 x9 x10 x11 x12 x13 x14 x15 x16 x17 x18 x19 x20)) :=
  level_read gather_S524288x64_S262144x1_S262144x64_1_0_n_n_0_1_164 rfl rfl rfl rfl rfl
    concatenates_S262144x64_S262144x64_S262144x64_S262144x192_d1 ref_emb6
    (fc_stage _ x19 x20) (fc_stage x5 x17 x18) (wrap_stage (by decide) _ x14) (wrap_stage (by decide) _ x14)

theorem ref_emb4 : val_main_v120 (F := Ideal) x4 x5 x6 x7 x8 x13 x14 x15 x16 x17 x18 x19 x20
    = tab2 (emb4 (inputsOf x0 x1 x2 x3 x4 x5 x6 x7 x8 x9 x10 x11 x12 x13 x14 x15 x16 x17 x18 x19 x20)) :=
  level_read gather_S262144x64_S131072x1_S131072x64_1_0_n_n_0_1_164 rfl rfl rfl rfl rfl
    concatenates_S131072x64_S131072x64_S131072x64_S131072x192_d1 ref_emb5
    (fc_stage _ x19 x20) (fc_stage x4 x17 x18) (wrap_stage (by decide) _ x13) (wrap_stage (by decide) _ x13)

theorem ref_emb3 : val_main_v149 (F := Ideal) x3 x4 x5 x6 x7 x8 x12 x13 x14 x15 x16 x17 x18 x19 x20
    = tab2 (emb3 (inputsOf x0 x1 x2 x3 x4 x5 x6 x7 x8 x9 x10 x11 x12 x13 x14 x15 x16 x17 x18 x19 x20)) :=
  level_read gather_S131072x64_S65536x1_S65536x64_1_0_n_n_0_1_164 rfl rfl rfl rfl rfl
    concatenates_S65536x64_S65536x64_S65536x64_S65536x192_d1 ref_emb4
    (fc_stage _ x19 x20) (fc_stage x3 x17 x18) (wrap_stage (by decide) _ x12) (wrap_stage (by decide) _ x12)

theorem ref_emb2 : val_main_v178 (F := Ideal) x2 x3 x4 x5 x6 x7 x8 x11 x12 x13 x14 x15 x16 x17 x18 x19 x20
    = tab2 (emb2 (inputsOf x0 x1 x2 x3 x4 x5 x6 x7 x8 x9 x10 x11 x12 x13 x14 x15 x16 x17 x18 x19 x20)) :=
  level_read gather_S65536x64_S32768x1_S32768x64_1_0_n_n_0_1_164 rfl rfl rfl rfl rfl
    concatenates_S32768x64_S32768x64_S32768x64_S32768x192_d1 ref_emb3
    (fc_stage _ x19 x20) (fc_stage x2 x17 x18) (wrap_stage (by decide) _ x11) (wrap_stage (by decide) _ x11)

theorem ref_emb1 : val_main_v207 (F := Ideal) x1 x2 x3 x4 x5 x6 x7 x8 x10 x11 x12 x13 x14 x15 x16 x17 x18 x19 x20
    = tab2 (emb1 (inputsOf x0 x1 x2 x3 x4 x5 x6 x7 x8 x9 x10 x11 x12 x13 x14 x15 x16 x17 x18 x19 x20)) :=
  level_read gather_S32768x64_S16384x1_S16384x64_1_0_n_n_0_1_164 rfl rfl rfl rfl rfl
    concatenates_S16384x64_S16384x64_S16384x64_S16384x192_d1 ref_emb2
    (fc_stage _ x19 x20) (fc_stage x1 x17 x18) (wrap_stage (by decide) _ x10) (wrap_stage (by decide) _ x10)

theorem ref_emb0 : val_main_v236 (F := Ideal) x0 x1 x2 x3 x4 x5 x6 x7 x8 x9 x10 x11 x12 x13 x14 x15 x16 x17 x18 x19 x20
    = tab2 (emb0 (inputsOf x0 x1 x2 x3 x4 x5 x6 x7 x8 x9 x10 x11 x12 x13 x14 x15 x16 x17 x18 x19 x20)) :=
  level_read gather_S16384x64_S8192x1_S8192x64_1_0_n_n_0_1_164 rfl rfl rfl rfl rfl
    concatenates_S8192x64_S8192x64_S8192x64_S8192x192_d1 ref_emb1
    (fc_stage _ x19 x20) (fc_stage x0 x17 x18) (wrap_stage (by decide) _ x9) (wrap_stage (by decide) _ x9)

end

theorem ref_value (x0 : (⟨S8192x32, .f32⟩ : BufTy).Contents (Elt Ideal)) (x1 : (⟨S16384x32, .f32⟩ : BufTy).Contents (Elt Ideal)) (x2 : (⟨S32768x32, .f32⟩ : BufTy).Contents (Elt Ideal)) (x3 : (⟨S65536x32, .f32⟩ : BufTy).Contents (Elt Ideal)) (x4 : (⟨S131072x32, .f32⟩ : BufTy).Contents (Elt Ideal)) (x5 : (⟨S262144x32, .f32⟩ : BufTy).Contents (Elt Ideal)) (x6 : (⟨S524288x32, .f32⟩ : BufTy).Contents (Elt Ideal)) (x7 : (⟨S1048576x32, .f32⟩ : BufTy).Contents (Elt Ideal)) (x8 : (⟨S2097152x32, .f32⟩ : BufTy).Contents (Elt Ideal)) (x9 : (⟨S8192x2, .i32⟩ : BufTy).Contents (Elt Ideal)) (x10 : (⟨S16384x2, .i32⟩ : BufTy).Contents (Elt Ideal)) (x11 : (⟨S32768x2, .i32⟩ : BufTy).Contents (Elt Ideal)) (x12 : (⟨S65536x2, .i32⟩ : BufTy).Contents (Elt Ideal)) (x13 : (⟨S131072x2, .i32⟩ : BufTy).Contents (Elt Ideal)) (x14 : (⟨S262144x2, .i32⟩ : BufTy).Contents (Elt Ideal)) (x15 : (⟨S524288x2, .i32⟩ : BufTy).Contents (Elt Ideal)) (x16 : (⟨S1048576x2, .i32⟩ : BufTy).Contents (Elt Ideal)) (x17 : (⟨S32x64, .f32⟩ : BufTy).Contents (Elt Ideal)) (x18 : (⟨S64, .f32⟩ : BufTy).Contents (Elt Ideal)) (x19 : (⟨S192x64, .f32⟩ : BufTy).Contents (Elt Ideal)) (x20 : (⟨S64, .f32⟩ : BufTy).Contents (Elt Ideal)) :
    val_main_v236 (F := Ideal) x0 x1 x2 x3 x4 x5 x6 x7 x8 x9 x10 x11 x12 x13 x14 x15 x16 x17 x18 x19 x20
      = Cert.Tree.tab2 (Cert.Tree.emb0 (Cert.Tree.inputsOf x0 x1 x2 x3 x4 x5 x6 x7 x8 x9 x10 x11 x12 x13 x14 x15 x16 x17 x18 x19 x20)) :=
  ref_emb0

end Cert.ReferenceIdeal.RefVal

end
-- ==== Proof.lean ====
import proofs.«426877_j670014898785_2_alg».proof.Defs
import proofs.«426877_j670014898785_2_alg».proof.Proof.Gen.Kernel
import proofs.«426877_j670014898785_2_alg».proof.Proof.Gen.Kernel.Frame
import proofs.«426877_j670014898785_2_alg».proof.Proof.Gen.KernelIdeal
import proofs.«426877_j670014898785_2_alg».proof.Proof.Gen.KernelIdeal.Frame
import proofs.«426877_j670014898785_2_alg».proof.Proof.Gen.ReferenceIdeal
import proofs.«426877_j670014898785_2_alg».proof.Proof.Gen.Pre_finite_inputs
import proofs.«426877_j670014898785_2_alg».proof.Proof.PreChildren
import proofs.«426877_j670014898785_2_alg».proof.Proof.KernelRun
import proofs.«426877_j670014898785_2_alg».proof.Proof.KerLevel8
import proofs.«426877_j670014898785_2_alg».proof.Proof.RefRun
import proofs.«426877_j670014898785_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- The precondition bounds every level's child words by the row count of the level below. -/
theorem oks_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Val.Oks m c :=
  have h := Cert.PreChildren.allOk_of_pre _ _ _ _ _ _ _ _ _ _ _ _ _ _ _ _ _ _ _ _ _ (hpre c)
  ⟨h.ok0, h.ok1, h.ok2, h.ok3, h.ok4, h.ok5, h.ok6, h.ok7⟩

/-- Both programs end at the root table of the tree recurrence, so their results agree. -/
theorem algebraic : Cert.algebraic_KernelIdeal_ReferenceIdeal := by
  intro m ρ m' ρ' hpre hagree
  refine ⟨fun c => Cert.Tree.tab2 (Cert.Tree.emb0 (Cert.KernelIdeal.Val.inp m c)), ?_, ?_⟩
  · refine (θ_run Cert.KernelIdeal.defs _ _).mono (fun r h c => ⟨(h c).1.trans ?_, (h c).2⟩)
      (Cert.KernelIdeal.GenRun.run_result (F := Ideal) m ρ)
    exact Cert.KernelIdeal.Val.emb_out8 m ρ c (oks_of_pre m hpre c)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]
    exact Cert.ReferenceIdeal.RefVal.ref_value _ _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
